-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512 .f32) (main_arg8 : FVec F S512x128 .f32) (main_arg9 : FVec F S128 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S512x128 .f32) (main_arg5 : FVec F S128 .f32) (main_arg6 : FVec F S128x512 .f32) (main_arg7 : FVec F S512 .f32) (main_arg8 : FVec F S512x128 .f32) (main_arg9 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S131072x128 .f32) (main_arg1 : FVec F S131072x128 .f32) (main_arg2 : FVec F S128x512 .f32) (main_arg3 : FVec F S512 .f32) (main_arg4 : FVec F S512x128 .f32) (main_arg5 : FVec F S128 .f32) (main_arg6 : FVec F S128x512 .f32) (main_arg7 : FVec F S512 .f32) (main_arg8 : FVec F S512x128 .f32) (main_arg9 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S131072x128 : Shape := ⟨2, ![131072, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x128 : Shape := ⟨2, ![1, 128]⟩
abbrev S1024x128 : Shape := ⟨2, ![1024, 128]⟩
abbrev S_ : Shape := ⟨0, ![]⟩
abbrev S1x512 : Shape := ⟨2, ![1, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩

abbrev nBuf : Space → Nat
  | .hbm => 26
  | .vmem => 22
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x512, .f32⟩
  | .hbm, ⟨19, _⟩ => ⟨S1x128, .f32⟩
  | .hbm, ⟨20, _⟩ => ⟨S1x512, .f32⟩
  | .hbm, ⟨21, _⟩ => ⟨S1x128, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S128x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x1, .f32⟩
  | .local _ .vmem, ⟨21, _⟩ => ⟨S1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v19 : BitVec 1 := Scalar.cmpi .eq arg0 c127_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v86 : BitVec 1 := Scalar.cmpi .eq arg0 c127_i32
  let v87 : BitVec 32 := Scalar.extui v86
  let c0_i32_44 : BitVec 32 := 0#32
  let v88 : BitVec 1 := Scalar.cmpi .ne v87 c0_i32_44
  v88

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S1024x128_0_0 : ∀ a, (![0, 0] : Fin 2 → Nat) a + S1024x128.size a ≤ S1024x128.size a
  h_S1024x128 : 0 < S1024x128.numel
  reduces_S1024x128_S128 : S1024x128.Reduces [0] S128
  shapeCasts_S128_S1x128 : S128.ShapeCasts S1x128
  bcast_S_S1x128 : S_.BroadcastsInDim S1x128 (![] : Fin 0 → Fin S1x128.rank)
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x128_S512x128_0_0 : ∀ a, (![0, 0] : Fin 2 → Nat) a + S512x128.size a ≤ S512x128.size a
  h_S512x128 : 0 < S512x128.numel
  broadcasts_S1x512_S1024x512 : S1x512.Broadcasts S1024x512
  broadcasts_S1x128_S1024x128 : S1x128.Broadcasts S1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S131072x128.size a
  hwx1_0 : ∀ i : grid1.Coords, EltTy.bits .f32 = 32 ∨ (Rect.block (s := S131072x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S131072x128.size a
  hwx1_1 : ∀ i : grid1.Coords, EltTy.bits .f32 = 32 ∨ (Rect.block (s := S131072x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .f32 = 32 ∨ (Rect.block (s := S512x128) S512x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S512x128.size a
  hwx1_8 : ∀ i : grid1.Coords, EltTy.bits .f32 = 32 ∨ (Rect.block (s := S512x128) S512x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S512x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v2) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v4) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9) S1x1.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k1_cond2 i == 1#1) | ⟨_ + 13, h⟩ => absurd h (Nat.not_lt.2 (Nat.le_add_left _ _))

class Facts : Prop extends Facts₀ where

variable [Facts]
-- ==== ReferenceIdeal.lean ====
abbrev S131072x128 : Shape := ⟨2, ![131072, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S131072x512 : Shape := ⟨2, ![131072, 512]⟩
abbrev S1x512 : Shape := ⟨2, ![1, 512]⟩
abbrev S_ : Shape := ⟨0, ![]⟩
abbrev S1x128 : Shape := ⟨2, ![1, 128]⟩
abbrev S131072 : Shape := ⟨1, ![131072]⟩

abbrev nBuf : Space → Nat
  | .hbm => 86
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S131072x512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .i1⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S131072x128, .f32⟩
  | .hbm, ⟨22, _⟩ => ⟨S1x128, .f32⟩
  | .hbm, ⟨23, _⟩ => ⟨S131072x128, .f32⟩
  | .hbm, ⟨24, _⟩ => ⟨S131072x128, .f32⟩
  | .hbm, ⟨25, _⟩ => ⟨S131072x512, .f32⟩
  | .hbm, ⟨26, _⟩ => ⟨S1x512, .f32⟩
  | .hbm, ⟨27, _⟩ => ⟨S131072x512, .f32⟩
  | .hbm, ⟨28, _⟩ => ⟨S131072x512, .f32⟩
  | .hbm, ⟨29, _⟩ => ⟨S_, .f32⟩
  | .hbm, ⟨30, _⟩ => ⟨S131072x512, .f32⟩
  | .hbm, ⟨31, _⟩ => ⟨S131072x512, .i1⟩
  | .hbm, ⟨32, _⟩ => ⟨S_, .f32⟩
  | .hbm, ⟨33, _⟩ => ⟨S131072x512, .f32⟩
  | .hbm, ⟨34, _⟩ => ⟨S131072x512, .f32⟩
  | .hbm, ⟨35, _⟩ => ⟨S131072x512, .f32⟩
  | .hbm, ⟨36, _⟩ => ⟨S131072x128, .f32⟩
  | .hbm, ⟨37, _⟩ => ⟨S1x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S131072x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S131072x128, .f32⟩
  | .hbm, ⟨63, _⟩ => ⟨S131072x128, .f32⟩
  | .hbm, ⟨64, _⟩ => ⟨S1x128, .f32⟩
  | .hbm, ⟨65, _⟩ => ⟨S131072x128, .f32⟩
  | .hbm, ⟨66, _⟩ => ⟨S131072x128, .f32⟩
  | .hbm, ⟨67, _⟩ => ⟨S1x128, .f32⟩
  | .hbm, ⟨68, _⟩ => ⟨S131072x128, .f32⟩
  | .hbm, ⟨69, _⟩ => ⟨S131072x128, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S_, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S_, .f32⟩
  | .hbm, ⟨78, _⟩ => ⟨S131072, .f32⟩
  | .hbm, ⟨79, _⟩ => ⟨S_, .f32⟩
  | .hbm, ⟨80, _⟩ => ⟨S131072, .f32⟩
  | .hbm, ⟨81, _⟩ => ⟨S131072, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  reducesTo_S131072x128_S128_d0 : S131072x128.ReducesTo [0] S128
  h_S_ : 0 < S_.numel
  bcast_S_S128 : S_.BroadcastsInDim S128 (![] : Fin 0 → Fin S128.rank)
  reducesTo_S131072x128_S131072_d1 : S131072x128.ReducesTo [1] S131072
  reducesTo_S131072_S_d0 : S131072.ReducesTo [0] S_
  dot_S131072x128_S128x512_S131072x512_1_0_0_1_n_n_wf : DotDims.WF S131072x128 S128x512 S131072x512 [1] [0] [0] [1] [] []
  dot_S131072x512_S512x128_S131072x128_1_0_0_1_n_n_wf : DotDims.WF S131072x512 S512x128 S131072x128 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf

class Facts : Prop extends Facts₀ where

variable [Facts]
-- ==== Proof.KbShared0.lean ====
import proofs.«148436_j816043786555_1_alg».proof.Proof.Gen.Kernel.Launch
import proofs.«148436_j816043786555_1_alg».proof.Proof.Gen.Kernel.Skeleton
import proofs.«148436_j816043786555_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

noncomputable abbrev cond0_1 (i : grid0.Coords) : Prop := k0_cond2 i = 1#1

theorem hcond0_1 : ∀ t : Fin cfg0.N, cond0_1 (grid0.coords t) ↔ t.val = 127 :=
  (by decide +kernel : ∀ t : Fin grid0.N, cond0_1 (grid0.coords t) ↔ t.val = 127)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem liveAt0_1 : ∀ t : Fin cfg0.N, cond0_1 (grid0.coords t) → cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

noncomputable abbrev VO0_1 : View sig .tc .vmem S1x128 .f32 := (Memref.whole cc0_stg1_0 : Memref sig .tc .vmem S1x128 .f32).view
noncomputable abbrev VO0_2 : View sig .tc .vmem S1x128 .f32 := (Memref.whole cc0_stg2_0 : Memref sig .tc .vmem S1x128 .f32).view

noncomputable abbrev ms0_0 (t : Fin cfg0.N) : Memref sig .tc .vmem S1024x128 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S1x128 .f32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S1x128 .f32 := win0_2.stage (cfg0.slots t 2)
noncomputable abbrev hs0_2 (t : Fin cfg0.N) : (ms0_2 t).IsWhole := hstage0_2 ((cfg0.slots t 2).cast nbuf0_2)

noncomputable abbrev scM0_0 : Memref sig .tc .vmem S1x128 .f32 := Memref.whole cc0_scratch0
noncomputable abbrev scM0_1 : Memref sig .tc .vmem S1x128 .f32 := Memref.whole cc0_scratch1
noncomputable abbrev VS0_0 : View sig .tc .vmem S1x128 .f32 := scM0_0.view
noncomputable abbrev VS0_1 : View sig .tc .vmem S1x128 .f32 := scM0_1.view

/-- The body's five operands: whole memrefs of the input block, the two outputs and the two running sums. -/
structure Ops0 where
  m1 : Memref sig .tc .vmem S1024x128 .f32
  h1 : m1.IsWhole
  m2 : Memref sig .tc .vmem S1x128 .f32
  h2 : m2.IsWhole
  m3 : Memref sig .tc .vmem S1x128 .f32
  h3 : m3.IsWhole
  m4 : Memref sig .tc .vmem S1x128 .f32
  h4 : m4.IsWhole
  m5 : Memref sig .tc .vmem S1x128 .f32
  h5 : m5.IsWhole

noncomputable abbrev ops0 (t : Fin cfg0.N) : Ops0 :=
  ⟨ms0_0 t, hs0_0 t, ms0_1 t, hs0_1 t, ms0_2 t, hs0_2 t, scM0_0, Memref.isWhole_whole _, scM0_1, Memref.isWhole_whole _⟩

noncomputable def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.Kernel.Hand

end
-- ==== Proof.KbRun0A.lean ====
import proofs.«148436_j816043786555_1_alg».proof.Proof.KbShared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (a : Ops0) (hc0 : cond0_0 i) (hc1 : ¬cond0_1 i)
    (x0 : Vec F S1024x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) a.m1 fullShare x0 ∗ owns (c : Thread nD τ) a.m2 fullShare xi1 ∗ owns (c : Thread nD τ) a.m3 fullShare xi2 ∗ (∃ d, owns (c : Thread nD τ) a.m4 fullShare d) ∗ (∃ d, owns (c : Thread nD τ) a.m5 fullShare d)
            ∗ (iprop(owns (c : Thread nD τ) a.m1 fullShare x0 ∗ owns (c : Thread nD τ) a.m2 fullShare xi1 ∗ owns (c : Thread nD τ) a.m3 fullShare xi2 ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, fun xi1 xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := a.h1.eq_unread hf0; obtain rfl := a.h2.eq_unread hf1; obtain rfl := a.h3.eq_unread hf2
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [HS0]; · iexists _; iexact HS0
    iexists _; iexact HS1

end Cert.Kernel.Hand

end
-- ==== Proof.KbRun0B.lean ====
import proofs.«148436_j816043786555_1_alg».proof.Proof.KbShared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (a : Ops0) (hc0 : ¬cond0_0 i) (hc1 : ¬cond0_1 i)
    (x0 : Vec F S1024x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) a.m1 fullShare x0 ∗ owns (c : Thread nD τ) a.m2 fullShare xi1 ∗ owns (c : Thread nD τ) a.m3 fullShare xi2 ∗ owns (c : Thread nD τ) a.m4 fullShare xs0 ∗ owns (c : Thread nD τ) a.m5 fullShare xs1
            ∗ (iprop(owns (c : Thread nD τ) a.m1 fullShare x0 ∗ owns (c : Thread nD τ) a.m2 fullShare xi1 ∗ owns (c : Thread nD τ) a.m3 fullShare xi2 ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, fun xi1 xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := a.h1.eq_unread hf0; obtain rfl := a.h2.eq_unread hf1; obtain rfl := a.h3.eq_unread hf2
    obtain rfl := a.h4.eq_unread hfs0; obtain rfl := a.h5.eq_unread hfs1
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [HS0]; · iexists _; iexact HS0
    iexists _; iexact HS1

end Cert.Kernel.Hand

end
-- ==== Proof.KbRun0C.lean ====
import proofs.«148436_j816043786555_1_alg».proof.Proof.KbShared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (a : Ops0) (hc0 : ¬cond0_0 i) (hc1 : cond0_1 i)
    (x0 : Vec F S1024x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a.m1 fullShare x0 ∗ (∃ d, owns (c : Thread nD τ) a.m2 fullShare d) ∗ (∃ d, owns (c : Thread nD τ) a.m3 fullShare d) ∗ owns (c : Thread nD τ) a.m4 fullShare xs0 ∗ owns (c : Thread nD τ) a.m5 fullShare xs1
            ∗ (iprop(owns (c : Thread nD τ) a.m1 fullShare x0 ∗ (∃ f, a.m2.view.loc (c : Thread nD τ) ↦[a.m2.view.set]{fullShare} a.m2.view.writes (Elt F) f L1) ∗ (∃ f, a.m3.view.loc (c : Thread nD τ) ↦[a.m3.view.set]{fullShare} a.m3.view.writes (Elt F) f L2) ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, ?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := a.h1.eq_unread hf0
    obtain rfl := a.h4.eq_unread hfs0; obtain rfl := a.h5.eq_unread hfs1
    sl_exec (disch := first | exact hc0 | exact hc1)
    sl_step
    iapply Hk
    isplitl [H0]
    · iexists _; isplitr; · ipureintro; exact a.h1.read_unread _
      iexact H0
    isplitl [H1]; · iexists _; iexact H1
    isplitl [H2]; · iexists _; iexact H2
    isplitl [HS0]; · iexists _; iexact HS0
    iexists _; iexact HS1

end Cert.Kernel.Hand

end
-- ==== Proof.KbFrame0.lean ====
import proofs.«148436_j816043786555_1_alg».proof.Proof.KbRun0A
import proofs.«148436_j816043786555_1_alg».proof.Proof.KbRun0B
import proofs.«148436_j816043786555_1_alg».proof.Proof.KbRun0C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem scover0_A_0 (c : Dev nD) (i : grid0.Coords) (a : Ops0) (hc0 : cond0_0 i) (hc1 : ¬cond0_1 i)
    (x0 : Vec F S1024x128 .f32) (y : S1x128.Idx) :
    ∃ pc ∈ (kernelRun0_A c i a hc0 hc1 x0).1, y ∈ pc.1.set :=
  View.cover_of_tiledL (kernelRun0_A c i a hc0 hc1 x0).1 S1x128.size (by sl_kernel_rfl) y

theorem scover0_A_1 (c : Dev nD) (i : grid0.Coords) (a : Ops0) (hc0 : cond0_0 i) (hc1 : ¬cond0_1 i)
    (x0 : Vec F S1024x128 .f32) (y : S1x128.Idx) :
    ∃ pc ∈ (kernelRun0_A c i a hc0 hc1 x0).2.1, y ∈ pc.1.set :=
  View.cover_of_tiledL (kernelRun0_A c i a hc0 hc1 x0).2.1 S1x128.size (by sl_kernel_rfl) y

theorem scover0_B_0 (c : Dev nD) (i : grid0.Coords) (a : Ops0) (hc0 : ¬cond0_0 i) (hc1 : ¬cond0_1 i)
    (x0 : Vec F S1024x128 .f32) (xs0 xs1 : Vec F S1x128 .f32) (y : S1x128.Idx) :
    ∃ pc ∈ (kernelRun0_B c i a hc0 hc1 x0 xs0 xs1).1, y ∈ pc.1.set :=
  View.cover_of_tiledL (kernelRun0_B c i a hc0 hc1 x0 xs0 xs1).1 S1x128.size (by sl_kernel_rfl) y

theorem scover0_B_1 (c : Dev nD) (i : grid0.Coords) (a : Ops0) (hc0 : ¬cond0_0 i) (hc1 : ¬cond0_1 i)
    (x0 : Vec F S1024x128 .f32) (xs0 xs1 : Vec F S1x128 .f32) (y : S1x128.Idx) :
    ∃ pc ∈ (kernelRun0_B c i a hc0 hc1 x0 xs0 xs1).2.1, y ∈ pc.1.set :=
  View.cover_of_tiledL (kernelRun0_B c i a hc0 hc1 x0 xs0 xs1).2.1 S1x128.size (by sl_kernel_rfl) y

theorem cover0_C_1 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).1, y ∈ pc.1.set :=
  View.cover_of_tiledL (kernelRun0_C c i a hc0 hc1 x0 xs0 xs1).1 S1x128.size (by sl_kernel_rfl) y

theorem cover0_C_2 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.1, y ∈ pc.1.set :=
  View.cover_of_tiledL (kernelRun0_C c i a hc0 hc1 x0 xs0 xs1).2.1 S1x128.size (by sl_kernel_rfl) y

theorem scover0_C_0 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.2.1, y ∈ pc.1.set :=
  View.cover_of_tiledL (kernelRun0_C c i a hc0 hc1 x0 xs0 xs1).2.2.1 S1x128.size (by sl_kernel_rfl) y

theorem scover0_C_1 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.2.2.1, y ∈ pc.1.set :=
  View.cover_of_tiledL (kernelRun0_C c i a hc0 hc1 x0 xs0 xs1).2.2.2.1 S1x128.size (by sl_kernel_rfl) y

theorem hz0 : (![0, 0] : Fin 2 → Nat) = fun _ => 0 := funext fun a => by fin_cases a <;> rfl

/-- What a control case's stores leave in a buffer, read back over anything: the named payload of the point's block and of what the buffer held before. -/
theorem rd_sout0_A_0 (c : Dev nD) (i : grid0.Coords) (a : Ops0) (hc0 : cond0_0 i) (hc1 : ¬cond0_1 i) (x0 : Vec F S1024x128 .f32) (m : Memref sig .tc .vmem S1x128 .f32) (f) :
    m.view.read (Elt F) (m.view.writes (Elt F) f (kernelRun0_A c i a hc0 hc1 x0).1) = k0_pay3 x0 k0_pay1 := by
  rw [View.read_writes_eq_canon _ _ _ (scover0_A_0 c i a hc0 hc1 x0)]
  unfold kernelRun0_A
  dsimp only
  sl_unfold_words
  rw [View.canon_cons_unit_zero (S := S1x128) hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_sout0_A_1 (c : Dev nD) (i : grid0.Coords) (a : Ops0) (hc0 : cond0_0 i) (hc1 : ¬cond0_1 i) (x0 : Vec F S1024x128 .f32) (m : Memref sig .tc .vmem S1x128 .f32) (f) :
    m.view.read (Elt F) (m.view.writes (Elt F) f (kernelRun0_A c i a hc0 hc1 x0).2.1) = k0_pay4 x0 k0_pay2 := by
  rw [View.read_writes_eq_canon _ _ _ (scover0_A_1 c i a hc0 hc1 x0)]
  unfold kernelRun0_A
  dsimp only
  sl_unfold_words
  rw [View.canon_cons_unit_zero (S := S1x128) hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_sout0_B_0 (c : Dev nD) (i : grid0.Coords) (a : Ops0) (hc0 : ¬cond0_0 i) (hc1 : ¬cond0_1 i) (x0 : Vec F S1024x128 .f32) (xs0 xs1 : Vec F S1x128 .f32) (m : Memref sig .tc .vmem S1x128 .f32) (f) :
    m.view.read (Elt F) (m.view.writes (Elt F) f (kernelRun0_B c i a hc0 hc1 x0 xs0 xs1).1) = k0_pay3 x0 xs0 := by
  rw [View.read_writes_eq_canon _ _ _ (scover0_B_0 c i a hc0 hc1 x0 xs0 xs1)]
  unfold kernelRun0_B
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_B_1 (c : Dev nD) (i : grid0.Coords) (a : Ops0) (hc0 : ¬cond0_0 i) (hc1 : ¬cond0_1 i) (x0 : Vec F S1024x128 .f32) (xs0 xs1 : Vec F S1x128 .f32) (m : Memref sig .tc .vmem S1x128 .f32) (f) :
    m.view.read (Elt F) (m.view.writes (Elt F) f (kernelRun0_B c i a hc0 hc1 x0 xs0 xs1).2.1) = k0_pay4 x0 xs1 := by
  rw [View.read_writes_eq_canon _ _ _ (scover0_B_1 c i a hc0 hc1 x0 xs0 xs1)]
  unfold kernelRun0_B
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_C_0 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.2.1) = k0_pay3 x0 xs0 := by
  rw [View.read_writes_eq_canon _ _ _ (scover0_C_0 c i a hc0 hc1 x0 xs0 xs1)]
  unfold kernelRun0_C
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_C_1 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.2.2.1) = k0_pay4 x0 xs1 := by
  rw [View.read_writes_eq_canon _ _ _ (scover0_C_1 c i a hc0 hc1 x0 xs0 xs1)]
  unfold kernelRun0_C
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_out0_C_1 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).1) = k0_pay3 x0 xs0 := by
  rw [View.read_writes_eq_canon _ _ _ (cover0_C_1 c i a hc0 hc1 x0 xs0 xs1)]
  unfold kernelRun0_C
  dsimp only
  sl_unfold_words
  rw [View.canon_unit_zero hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_out0_C_2 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.1) = k0_pay4 x0 xs1 := by
  rw [View.read_writes_eq_canon _ _ _ (cover0_C_2 c i a hc0 hc1 x0 xs0 xs1)]
  unfold kernelRun0_C
  dsimp only
  sl_unfold_words
  rw [View.canon_unit_zero hz0, View.readCov_unit_zero (S := S1x128) _ hz0]
  simp only [View.readAt_eq_ld, a.h1.read_unread, a.h4.read_unread, a.h5.read_unread, View.ld_unit_zero (S := S1024x128) hz0, View.ld_unit_zero (S := S1x128) hz0]

/-- The two running column sums (of the input and of its square) after grid point `n`: each point adds its tile's column sums to what the point before left, the first to zero. -/
noncomputable def scr0 (c : Dev nD) : (n : ℕ) → n < cfg0.N → Vec F S1x128 .f32 × Vec F S1x128 .f32
  | 0, hn => (k0_pay3 (iblk0 V c 0 ⟨0, hn⟩) k0_pay1, k0_pay4 (iblk0 V c 0 ⟨0, hn⟩) k0_pay2)
  | n + 1, hn => (k0_pay3 (iblk0 V c 0 ⟨n + 1, hn⟩) (scr0 c n (Nat.lt_of_succ_lt hn)).1, k0_pay4 (iblk0 V c 0 ⟨n + 1, hn⟩) (scr0 c n (Nat.lt_of_succ_lt hn)).2)

theorem scr0_first (c : Dev nD) (t : Fin cfg0.N) (h0 : t.val = 0) :
    scr0 V c t.val t.isLt = (k0_pay3 (iblk0 V c 0 t) k0_pay1, k0_pay4 (iblk0 V c 0 t) k0_pay2) := by
  obtain ⟨n, hn⟩ := t
  cases n with
  | zero => rfl
  | succ n => exact absurd h0 (Nat.succ_ne_zero n)

theorem scr0_next (c : Dev nD) (t : Fin cfg0.N) (h0 : ¬t.val = 0) :
    scr0 V c t.val t.isLt = (k0_pay3 (iblk0 V c 0 t) (scr0 V c (t.val - 1) (Nat.lt_of_le_of_lt (Nat.sub_le _ _) t.isLt)).1, k0_pay4 (iblk0 V c 0 t) (scr0 V c (t.val - 1) (Nat.lt_of_le_of_lt (Nat.sub_le _ _) t.isLt)).2) := by
  obtain ⟨n, hn⟩ := t
  cases n with
  | zero => exact absurd rfl h0
  | succ n => rfl

noncomputable def PhiS0 (c : Dev nD) : (n : ℕ) → n ≤ cfg0.N → sProp 𝕄
  | 0, _ => Pipeline.ΦA spec0 c
  | n + 1, hn => iprop(iprop(owns (c : Thread nD τ) scM0_0 fullShare ((scr0 V c n hn).1) ∗ owns (c : Thread nD τ) scM0_1 fullShare ((scr0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((scr0 V c n hn).1) ∗ owns (c : Thread nD τ) scM0_1 fullShare ((scr0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((scr0 V c (n - 1) (by omega)).1) ∗ owns (c : Thread nD τ) scM0_1 fullShare ((scr0 V c (n - 1) (by omega)).2) ∗ Rest0 (F := F) c) ∗ (∃ r, prngReg c r)) := by
  cases n with
  | zero => exact absurd rfl hz
  | succ n => rfl

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scr0 V c t.val t.isLt).1
    | ⟨2, _⟩ => (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (scr0 V c t.val t.isLt).1 := by dsimp only [dat0]
theorem after0_2 (c : Dev nD) (t : Fin cfg0.N) : (dat0 V c).after 2 t = (scr0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 127 := by omega
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [scr0_first V c t h0]; (try dsimp only)
    rw [PhiS0_castSucc V c t, PhiS0_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) (ops0 t) ((hcond0_0 t).mpr h0) (fun h => h1 ((hcond0_1 t).mp h)) (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact rd_sout0_A_0 c _ _ _ _ _ _ _
        isplitl [HS1]
        · unfold owns; iexists _; isplitr
          swap; · iexact HS1
          ipureintro; exact rd_sout0_A_1 c _ _ _ _ _ _ _
        iexact HR
      iexact Hg
    isplitl [Ho]; · iexact Ho
    isplitl [H0]; · iexact H0
    isplitl [H1]; · iexists _; iexact H1
    iexists _; iexact H2
  · by_cases h1 : t.val = 127
    · rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [scr0_next V c t h0]; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩⟩
      iapply ((kernelRun0_C c (grid0.coords t) (ops0 t) (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact rd_sout0_C_0 c _ _ _ _ _ _ _ _ _
          isplitl [HS1]
          · unfold owns; iexists _; isplitr
            swap; · iexact HS1
            ipureintro; exact rd_sout0_C_1 c _ _ _ _ _ _ _ _ _
          iexact HR
        iexact Hg
      isplitl [Ho]; · iexact Ho
      isplitl [H0]; · iexact H0
      isplitl [H1]
      · unfold owns; iexists _; isplitr
        swap; · iexact H1
        ipureintro; exact rd_out0_C_1 c _ _ _ _ _ _ _ _ _
      unfold owns; iexists _; isplitr
      swap; · iexact H2
      ipureintro; exact rd_out0_C_2 c _ _ _ _ _ _ _ _ _
    · rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [scr0_next V c t h0]; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩⟩
      iapply ((kernelRun0_B c (grid0.coords t) (ops0 t) (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact rd_sout0_B_0 c _ _ _ _ _ _ _ _ _
          isplitl [HS1]
          · unfold owns; iexists _; isplitr
            swap; · iexact HS1
            ipureintro; exact rd_sout0_B_1 c _ _ _ _ _ _ _ _ _
          iexact HR
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 128 := N_0; omega)

end Cert.Kernel.Hand

end
-- ==== Proof.KbShared1.lean ====
import proofs.«148436_j816043786555_1_alg».proof.Proof.Gen.Kernel.Launch
import proofs.«148436_j816043786555_1_alg».proof.Proof.Gen.Kernel.Skeleton
import proofs.«148436_j816043786555_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

noncomputable abbrev cond1_1 (i : grid1.Coords) : Prop := k1_cond2 i = 1#1

theorem hcond1_1 : ∀ t : Fin cfg1.N, cond1_1 (grid1.coords t) ↔ t.val = 127 :=
  (by decide +kernel : ∀ t : Fin grid1.N, cond1_1 (grid1.coords t) ↔ t.val = 127)

theorem lt12 : ∀ w : Fin cfg1.W, w.val < 12 →
    w = 0 ∨ w = 1 ∨ w = 2 ∨ w = 3 ∨ w = 4 ∨ w = 5 ∨ w = 6 ∨ w = 7 ∨ w = 8 ∨ w = 9 ∨ w = 10 ∨ w = 11 := by decide

theorem liveAt1_in (w : Fin cfg1.W) (hw : w.val < 12) (i : grid1.Coords) : cfg1.idle w i = false := by
  rcases lt12 w hw with rfl | rfl | rfl | rfl | rfl | rfl | rfl | rfl | rfl | rfl | rfl | rfl <;> rfl

theorem idleAt1_12 : ∀ t : Fin cfg1.N, ¬cond1_1 (grid1.coords t) → cfg1.idle 12 (grid1.coords t) = true := by decide +kernel

theorem noFlush1_12 : ∀ t : Fin cfg1.N, ¬cond1_1 (grid1.coords t) → (cfg1.win 12).flush t = false := by decide +kernel

theorem liveAt1_12 : ∀ t : Fin cfg1.N, cond1_1 (grid1.coords t) → cfg1.idle 12 (grid1.coords t) = false := by decide +kernel

noncomputable abbrev VO1_12 : View sig .tc .vmem S1x1 .f32 := (Memref.whole cc1_stg12_0 : Memref sig .tc .vmem S1x1 .f32).view

noncomputable abbrev ms1_0 (t : Fin cfg1.N) : Memref sig .tc .vmem S1024x128 .f32 := win1_0.stage (cfg1.slots t 0)
noncomputable abbrev hs1_0 (t : Fin cfg1.N) : (ms1_0 t).IsWhole := hstage1_0 ((cfg1.slots t 0).cast nbuf1_0)
noncomputable abbrev ms1_1 (t : Fin cfg1.N) : Memref sig .tc .vmem S1024x128 .f32 := win1_1.stage (cfg1.slots t 1)
noncomputable abbrev hs1_1 (t : Fin cfg1.N) : (ms1_1 t).IsWhole := hstage1_1 ((cfg1.slots t 1).cast nbuf1_1)
noncomputable abbrev ms1_2 (t : Fin cfg1.N) : Memref sig .tc .vmem S128x512 .f32 := win1_2.stage (cfg1.slots t 2)
noncomputable abbrev hs1_2 (t : Fin cfg1.N) : (ms1_2 t).IsWhole := hstage1_2 ((cfg1.slots t 2).cast nbuf1_2)
noncomputable abbrev ms1_3 (t : Fin cfg1.N) : Memref sig .tc .vmem S1x512 .f32 := win1_3.stage (cfg1.slots t 3)
noncomputable abbrev hs1_3 (t : Fin cfg1.N) : (ms1_3 t).IsWhole := hstage1_3 ((cfg1.slots t 3).cast nbuf1_3)
noncomputable abbrev ms1_4 (t : Fin cfg1.N) : Memref sig .tc .vmem S512x128 .f32 := win1_4.stage (cfg1.slots t 4)
noncomputable abbrev hs1_4 (t : Fin cfg1.N) : (ms1_4 t).IsWhole := hstage1_4 ((cfg1.slots t 4).cast nbuf1_4)
noncomputable abbrev ms1_5 (t : Fin cfg1.N) : Memref sig .tc .vmem S1x128 .f32 := win1_5.stage (cfg1.slots t 5)
noncomputable abbrev hs1_5 (t : Fin cfg1.N) : (ms1_5 t).IsWhole := hstage1_5 ((cfg1.slots t 5).cast nbuf1_5)
noncomputable abbrev ms1_6 (t : Fin cfg1.N) : Memref sig .tc .vmem S128x512 .f32 := win1_6.stage (cfg1.slots t 6)
noncomputable abbrev hs1_6 (t : Fin cfg1.N) : (ms1_6 t).IsWhole := hstage1_6 ((cfg1.slots t 6).cast nbuf1_6)
noncomputable abbrev ms1_7 (t : Fin cfg1.N) : Memref sig .tc .vmem S1x512 .f32 := win1_7.stage (cfg1.slots t 7)
noncomputable abbrev hs1_7 (t : Fin cfg1.N) : (ms1_7 t).IsWhole := hstage1_7 ((cfg1.slots t 7).cast nbuf1_7)
noncomputable abbrev ms1_8 (t : Fin cfg1.N) : Memref sig .tc .vmem S512x128 .f32 := win1_8.stage (cfg1.slots t 8)
noncomputable abbrev hs1_8 (t : Fin cfg1.N) : (ms1_8 t).IsWhole := hstage1_8 ((cfg1.slots t 8).cast nbuf1_8)
noncomputable abbrev ms1_9 (t : Fin cfg1.N) : Memref sig .tc .vmem S1x128 .f32 := win1_9.stage (cfg1.slots t 9)
noncomputable abbrev hs1_9 (t : Fin cfg1.N) : (ms1_9 t).IsWhole := hstage1_9 ((cfg1.slots t 9).cast nbuf1_9)
noncomputable abbrev ms1_10 (t : Fin cfg1.N) : Memref sig .tc .vmem S1x128 .f32 := win1_10.stage (cfg1.slots t 10)
noncomputable abbrev hs1_10 (t : Fin cfg1.N) : (ms1_10 t).IsWhole := hstage1_10 ((cfg1.slots t 10).cast nbuf1_10)
noncomputable abbrev ms1_11 (t : Fin cfg1.N) : Memref sig .tc .vmem S1x128 .f32 := win1_11.stage (cfg1.slots t 11)
noncomputable abbrev hs1_11 (t : Fin cfg1.N) : (ms1_11 t).IsWhole := hstage1_11 ((cfg1.slots t 11).cast nbuf1_11)
noncomputable abbrev ms1_12 (t : Fin cfg1.N) : Memref sig .tc .vmem S1x1 .f32 := win1_12.stage (cfg1.slots t 12)
noncomputable abbrev hs1_12 (t : Fin cfg1.N) : (ms1_12 t).IsWhole := hstage1_12 ((cfg1.slots t 12).cast nbuf1_12)

noncomputable abbrev scM1_0 : Memref sig .tc .vmem S1x1 .f32 := Memref.whole cc1_scratch0

noncomputable abbrev VS1_0 : View sig .tc .vmem S1x1 .f32 := scM1_0.view

/-- The body's fourteen operands: whole memrefs of the twelve inputs, the output and the running total. -/
structure Ops1 where
  m1 : Memref sig .tc .vmem S1024x128 .f32
  h1 : m1.IsWhole
  m2 : Memref sig .tc .vmem S1024x128 .f32
  h2 : m2.IsWhole
  m3 : Memref sig .tc .vmem S128x512 .f32
  h3 : m3.IsWhole
  m4 : Memref sig .tc .vmem S1x512 .f32
  h4 : m4.IsWhole
  m5 : Memref sig .tc .vmem S512x128 .f32
  h5 : m5.IsWhole
  m6 : Memref sig .tc .vmem S1x128 .f32
  h6 : m6.IsWhole
  m7 : Memref sig .tc .vmem S128x512 .f32
  h7 : m7.IsWhole
  m8 : Memref sig .tc .vmem S1x512 .f32
  h8 : m8.IsWhole
  m9 : Memref sig .tc .vmem S512x128 .f32
  h9 : m9.IsWhole
  m10 : Memref sig .tc .vmem S1x128 .f32
  h10 : m10.IsWhole
  m11 : Memref sig .tc .vmem S1x128 .f32
  h11 : m11.IsWhole
  m12 : Memref sig .tc .vmem S1x128 .f32
  h12 : m12.IsWhole
  m13 : Memref sig .tc .vmem S1x1 .f32
  h13 : m13.IsWhole
  m14 : Memref sig .tc .vmem S1x1 .f32
  h14 : m14.IsWhole

noncomputable abbrev ops1 (t : Fin cfg1.N) : Ops1 :=
  ⟨ms1_0 t, hs1_0 t, ms1_1 t, hs1_1 t, ms1_2 t, hs1_2 t, ms1_3 t, hs1_3 t, ms1_4 t, hs1_4 t, ms1_5 t, hs1_5 t, ms1_6 t, hs1_6 t, ms1_7 t, hs1_7 t, ms1_8 t, hs1_8 t, ms1_9 t, hs1_9 t, ms1_10 t, hs1_10 t, ms1_11 t, hs1_11 t, ms1_12 t, hs1_12 t, scM1_0, Memref.isWhole_whole _⟩

/-- The twelve input blocks of one grid point. -/
structure Blk1 (F : FTy → Type) where
  x0 : Vec F S1024x128 .f32
  x1 : Vec F S1024x128 .f32
  x2 : Vec F S128x512 .f32
  x3 : Vec F S1x512 .f32
  x4 : Vec F S512x128 .f32
  x5 : Vec F S1x128 .f32
  x6 : Vec F S128x512 .f32
  x7 : Vec F S1x512 .f32
  x8 : Vec F S512x128 .f32
  x9 : Vec F S1x128 .f32
  x10 : Vec F S1x128 .f32
  x11 : Vec F S1x128 .f32

noncomputable def step1 (xb yb : Vec F S1024x128 .f32) (W1m : Vec F S128x512 .f32) (b1m : Vec F S1x512 .f32)
    (W2m : Vec F S512x128 .f32) (b2m : Vec F S1x128 .f32) (W1v : Vec F S128x512 .f32) (b1v : Vec F S1x512 .f32)
    (W2v : Vec F S512x128 .f32) (b2v : Vec F S1x128 .f32) (ym y2m : Vec F S1x128 .f32) (prev : Vec F S1x1 .f32) :
    FVec F S1x1 .f32 :=
  k1_pay1
    (k1_pay12 (k1_pay3 xb) (k1_pay4 b2m) (k1_pay5 W1v) (k1_pay6 b1v) (k1_pay7 W2v) (k1_pay8 b2v) (k1_pay9 xb W1m b1m W2m) ym y2m)
    (k1_pay13 (k1_pay3 xb) yb (k1_pay4 b2m) (k1_pay5 W1v) (k1_pay6 b1v) (k1_pay7 W2v) (k1_pay8 b2v) (k1_pay9 xb W1m b1m W2m))
    prev

noncomputable abbrev someAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KbRun1A.lean ====
import proofs.«148436_j816043786555_1_alg».proof.Proof.KbShared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (a : Ops1) (hc0 : cond1_0 i) (hc1 : ¬cond1_1 i)
    (x : Blk1 F) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ d, owns (c : Thread nD τ) a.m14 fullShare d)
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨[], ?_, fun xi12 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h13.eq_unread hf12
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]
    · iexists _; isplitr; · ipureintro; exact a.h13.read_unread _
      iexact H12
    iexists _; iexact HS0

end Cert.Kernel.Hand

end
-- ==== Proof.KbRun1B.lean ====
import proofs.«148436_j816043786555_1_alg».proof.Proof.KbRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (a : Ops1) (hc0 : ¬cond1_0 i) (hc1 : ¬cond1_1 i)
    (x : Blk1 F) (xs0 : Vec F S1x1 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ owns (c : Thread nD τ) a.m14 fullShare xs0
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨[], ?_, fun xi12 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h13.eq_unread hf12
    obtain rfl := a.h14.eq_unread hfs0
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]
    · iexists _; isplitr; · ipureintro; exact a.h13.read_unread _
      iexact H12
    iexists _; iexact HS0

end Cert.Kernel.Hand

end
-- ==== Proof.KbRun1C.lean ====
import proofs.«148436_j816043786555_1_alg».proof.Proof.KbRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (a : Ops1) (hc0 : ¬cond1_0 i) (hc1 : cond1_1 i)
    (x : Blk1 F) (xs0 : Vec F S1x1 .f32) :
    Σ' (L12 : List (View.Piece (Elt F) S1x1 .f32)), { LS0 : List (View.Piece (Elt F) S1x1 .f32) //
      ∀ (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ (∃ d, owns (c : Thread nD τ) a.m13 fullShare d) ∗ owns (c : Thread nD τ) a.m14 fullShare xs0
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ (∃ f, a.m13.view.loc (c : Thread nD τ) ↦[a.m13.view.set]{fullShare} a.m13.view.writes (Elt F) f L12) ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h14.eq_unread hfs0
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]; · iexists _; iexact H12
    iexists _; iexact HS0

end Cert.Kernel.Hand

end
-- ==== Proof.KbFrame1.lean ====
import proofs.«148436_j816043786555_1_alg».proof.Proof.KbRun1C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev blk1 (c : Dev nD) (t : Fin cfg1.N) : Blk1 F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t⟩

theorem scover1_A_0 (c : Dev nD) (i : grid1.Coords) (a : Ops1) (hc0 : cond1_0 i) (hc1 : ¬cond1_1 i)
    (x : Blk1 F) (y : S1x1.Idx) :
    ∃ pc ∈ (kernelRun1_A c i a hc0 hc1 x).2.1, y ∈ pc.1.set :=
  View.cover_of_tiledL (kernelRun1_A c i a hc0 hc1 x).2.1 S1x1.size (by sl_kernel_rfl) y

theorem scover1_B_0 (c : Dev nD) (i : grid1.Coords) (a : Ops1) (hc0 : ¬cond1_0 i) (hc1 : ¬cond1_1 i)
    (x : Blk1 F) (xs0 : Vec F S1x1 .f32) (y : S1x1.Idx) :
    ∃ pc ∈ (kernelRun1_B c i a hc0 hc1 x xs0).2.1, y ∈ pc.1.set :=
  View.cover_of_tiledL (kernelRun1_B c i a hc0 hc1 x xs0).2.1 S1x1.size (by sl_kernel_rfl) y

theorem cover1_C_12 (c : Dev nD) (i : grid1.Coords) (a : Ops1) (hc0 : ¬cond1_0 i) (hc1 : cond1_1 i)
    (x : Blk1 F) (xs0 : Vec F S1x1 .f32) (y : S1x1.Idx) :
    ∃ pc ∈ (kernelRun1_C c i a hc0 hc1 x xs0).1, y ∈ pc.1.set :=
  View.cover_of_tiledL (kernelRun1_C c i a hc0 hc1 x xs0).1 S1x1.size (by sl_kernel_rfl) y

theorem scover1_C_0 (c : Dev nD) (i : grid1.Coords) (a : Ops1) (hc0 : ¬cond1_0 i) (hc1 : cond1_1 i)
    (x : Blk1 F) (xs0 : Vec F S1x1 .f32) (y : S1x1.Idx) :
    ∃ pc ∈ (kernelRun1_C c i a hc0 hc1 x xs0).2.1, y ∈ pc.1.set :=
  View.cover_of_tiledL (kernelRun1_C c i a hc0 hc1 x xs0).2.1 S1x1.size (by sl_kernel_rfl) y

theorem hz2 : (![0, 0] : Fin 2 → Nat) = fun _ => 0 := funext fun a => by fin_cases a <;> rfl

set_option maxHeartbeats 1000000 in
theorem rd_sout1_A_0 (c : Dev nD) (i : grid1.Coords) (a : Ops1) (hc0 : cond1_0 i) (hc1 : ¬cond1_1 i)
    (x : Blk1 F) (m : Memref sig .tc .vmem S1x1 .f32) (f) :
    m.view.read (Elt F) (m.view.writes (Elt F) f (kernelRun1_A c i a hc0 hc1 x).2.1) = step1 x.x0 x.x1 x.x2 x.x3 x.x4 x.x5 x.x6 x.x7 x.x8 x.x9 x.x10 x.x11 (k1_pay2 (F := F)) := by
  rw [View.read_writes_eq_canon _ _ _ (scover1_A_0 c i a hc0 hc1 x)]
  unfold kernelRun1_A; dsimp only; sl_unfold_words
  rw [View.canon_cons_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_sout1_B_0 (c : Dev nD) (i : grid1.Coords) (a : Ops1) (hc0 : ¬cond1_0 i) (hc1 : ¬cond1_1 i)
    (x : Blk1 F) (xs0 : Vec F S1x1 .f32) (m : Memref sig .tc .vmem S1x1 .f32) (f) :
    m.view.read (Elt F) (m.view.writes (Elt F) f (kernelRun1_B c i a hc0 hc1 x xs0).2.1) = step1 x.x0 x.x1 x.x2 x.x3 x.x4 x.x5 x.x6 x.x7 x.x8 x.x9 x.x10 x.x11 xs0 := by
  rw [View.read_writes_eq_canon _ _ _ (scover1_B_0 c i a hc0 hc1 x xs0)]
  unfold kernelRun1_B; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_sout1_C_0 (c : Dev nD) (i : grid1.Coords) (a : Ops1) (hc0 : ¬cond1_0 i) (hc1 : cond1_1 i)
    (x : Blk1 F) (xs0 : Vec F S1x1 .f32) (m : Memref sig .tc .vmem S1x1 .f32) (f) :
    m.view.read (Elt F) (m.view.writes (Elt F) f (kernelRun1_C c i a hc0 hc1 x xs0).2.1) = step1 x.x0 x.x1 x.x2 x.x3 x.x4 x.x5 x.x6 x.x7 x.x8 x.x9 x.x10 x.x11 xs0 := by
  rw [View.read_writes_eq_canon _ _ _ (scover1_C_0 c i a hc0 hc1 x xs0)]
  unfold kernelRun1_C; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_out1_C_12 (c : Dev nD) (i : grid1.Coords) (a : Ops1) (hc0 : ¬cond1_0 i) (hc1 : cond1_1 i)
    (x : Blk1 F) (xs0 : Vec F S1x1 .f32) (m : Memref sig .tc .vmem S1x1 .f32) (f) :
    m.view.read (Elt F) (m.view.writes (Elt F) f (kernelRun1_C c i a hc0 hc1 x xs0).1) = step1 x.x0 x.x1 x.x2 x.x3 x.x4 x.x5 x.x6 x.x7 x.x8 x.x9 x.x10 x.x11 xs0 := by
  rw [View.read_writes_eq_canon _ _ _ (cover1_C_12 c i a hc0 hc1 x xs0)]
  unfold kernelRun1_C; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

/-- One point's update of the running total, over the point's twelve input blocks as one record. -/
noncomputable def stepB (x : Blk1 F) (p : Vec F S1x1 .f32) : Vec F S1x1 .f32 :=
  step1 x.x0 x.x1 x.x2 x.x3 x.x4 x.x5 x.x6 x.x7 x.x8 x.x9 x.x10 x.x11 p

/-- The running total after grid point `n`: each point adds its tile's total to what the point before left, the first to zero. -/
noncomputable def acc1 (c : Dev nD) : (n : ℕ) → n < cfg1.N → Vec F S1x1 .f32
  | 0, hn => stepB (blk1 V c ⟨0, hn⟩) k1_pay2
  | n + 1, hn => stepB (blk1 V c ⟨n + 1, hn⟩) (acc1 c n (Nat.lt_of_succ_lt hn))

theorem acc1_first (c : Dev nD) (t : Fin cfg1.N) (h0 : t.val = 0) : acc1 V c t.val t.isLt = stepB (blk1 V c t) k1_pay2 := by
  obtain ⟨n, hn⟩ := t
  cases n with
  | zero => rfl
  | succ n => exact absurd h0 (Nat.succ_ne_zero n)

theorem acc1_next (c : Dev nD) (t : Fin cfg1.N) (h0 : ¬t.val = 0) :
    acc1 V c t.val t.isLt = stepB (blk1 V c t) (acc1 V c (t.val - 1) (Nat.lt_of_le_of_lt (Nat.sub_le _ _) t.isLt)) := by
  obtain ⟨n, hn⟩ := t
  cases n with
  | zero => exact absurd rfl h0
  | succ n => rfl

noncomputable def PhiS1 (c : Dev nD) : (n : ℕ) → n ≤ cfg1.N → sProp 𝕄
  | 0, _ => Pipeline.ΦA spec1 c
  | n + 1, hn => iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c (n - 1) (by omega))) ∗ (∃ r, prngReg c r)) := by
  cases n with
  | zero => exact absurd rfl hz
  | succ n => rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_12 (c : Dev nD) (t : Fin cfg1.N) : (dat1 V c).after 12 t = acc1 V c t.val t.isLt := by dsimp only [dat1]

theorem before1_all (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) ∧ (∀ d, (dat1 V c).before 9 t d = iblk1 V c 9 t) ∧ (∀ d, (dat1 V c).before 10 t d = iblk1 V c 10 t) ∧ (∀ d, (dat1 V c).before 11 t d = iblk1 V c 11 t) := by
  refine ⟨?_, ?_, ?_, ?_, ?_, ?_, ?_, ?_, ?_, ?_, ?_, ?_⟩ <;> intro d <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; dsimp only [dat1]; try rfl)

theorem leaves1_all (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t)
    ∧ (dat1 V c).leavesExact 6 t = owns (c : Thread nD τ) (ms1_6 t) fullShare (iblk1 V c 6 t)
    ∧ (dat1 V c).leavesExact 7 t = owns (c : Thread nD τ) (ms1_7 t) fullShare (iblk1 V c 7 t)
    ∧ (dat1 V c).leavesExact 8 t = owns (c : Thread nD τ) (ms1_8 t) fullShare (iblk1 V c 8 t)
    ∧ (dat1 V c).leavesExact 9 t = owns (c : Thread nD τ) (ms1_9 t) fullShare (iblk1 V c 9 t)
    ∧ (dat1 V c).leavesExact 10 t = owns (c : Thread nD τ) (ms1_10 t) fullShare (iblk1 V c 10 t)
    ∧ (dat1 V c).leavesExact 11 t = owns (c : Thread nD τ) (ms1_11 t) fullShare (iblk1 V c 11 t) := by
  refine ⟨?_, ?_, ?_, ?_, ?_, ?_, ?_, ?_, ?_, ?_, ?_, ?_⟩ <;>
  (unfold Dat.leavesExact; rw [liveAt1_in _ (by decide)]; dsimp only [dat1])

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5, b6, b7, b8, b9, b10, b11⟩ := before1_all V c t
  obtain ⟨l0, l1, l2, l3, l4, l5, l6, l7, l8, l9, l10, l11⟩ := leaves1_all V c t
  simp only [b0, b1, b2, b3, b4, b5, b6, b7, b8, b9, b10, b11]
  rw [l0, l1, l2, l3, l4, l5, l6, l7, l8, l9, l10, l11]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val = 0
  · have h1 : ¬t.val = 127 := by omega
    rw [Dat.leavesExact_idle (dat1 V c) 12 t (idleAt1_12 t (fun h => h1 ((hcond1_1 t).mp h))) (noFlush1_12 t (fun h => h1 ((hcond1_1 t).mp h)))]
    rw [acc1_first V c t h0]
    rw [PhiS1_castSucc V c t, PhiS1_zero V c _ _ h0, PhiA1_eq]
    iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_A c (grid1.coords t) (ops1 t) ((hcond1_0 t).mpr h0) (fun h => h1 ((hcond1_1 t).mp h)) (blk1 V c t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iintro ⟨H0, H1, H2, H3, H4, H5, H6, H7, H8, H9, H10, H11, H12, ⟨%es0, HS0⟩⟩
    isplitl [R0 R1 R2 R3 R4 R5 HS0 Hg]
    · isplitl [R0 R1 R2 R3 R4 R5 HS0]
      · isplitl [R0]; · iexact R0
        isplitl [R1]; · iexact R1
        isplitl [R2]; · iexact R2
        isplitl [R3]; · iexact R3
        isplitl [R4]; · iexact R4
        isplitl [R5]; · iexact R5
        unfold owns; iexists _; isplitr
        swap; · iexact HS0
        ipureintro; exact rd_sout1_A_0 c _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · by_cases h1 : t.val = 127
    ·
      rw [show (dat1 V c).leavesExact 12 t = owns (c : Thread nD τ) (ms1_12 t) fullShare ((dat1 V c).after 12 t) from by
        unfold Dat.leavesExact; rw [liveAt1_12 t ((hcond1_1 t).mpr h1)], after1_12]
      rw [acc1_next V c t h0]
      rw [PhiS1_castSucc V c t, PhiS1_pos V c _ _ h0]
      iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_C c (grid1.coords t) (ops1 t) (fun h => h0 ((hcond1_0 t).mp h)) ((hcond1_1 t).mpr h1) (blk1 V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, ⟨%es0, HS0⟩⟩
      isplitl [R0 R1 R2 R3 R4 R5 HS0 Hg]
      · isplitl [R0 R1 R2 R3 R4 R5 HS0]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS0
          ipureintro; exact rd_sout1_C_0 c _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact rd_out1_C_12 c _ _ _ _ _ _ _ _
    ·
      rw [Dat.leavesExact_idle (dat1 V c) 12 t (idleAt1_12 t (fun h => h1 ((hcond1_1 t).mp h))) (noFlush1_12 t (fun h => h1 ((hcond1_1 t).mp h)))]
      rw [acc1_next V c t h0]
      rw [PhiS1_castSucc V c t, PhiS1_pos V c _ _ h0]
      iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) (ops1 t) (fun h => h0 ((hcond1_0 t).mp h)) (fun h => h1 ((hcond1_1 t).mp h)) (blk1 V c t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [R0 R1 R2 R3 R4 R5 HS0 Hg]
      · isplitl [R0 R1 R2 R3 R4 R5 HS0]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS0
          ipureintro; exact rd_sout1_B_0 c _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨R0, R1, R2, R3, R4, R5, HS0⟩, Hg⟩
  isplitl [R0 R1 R2 R3 R4 R5 HS0]
  · isplitl [R0]; · iexact R0
    isplitl [R1]; · iexact R1
    isplitl [R2]; · iexact R2
    isplitl [R3]; · iexact R3
    isplitl [R4]; · iexact R4
    isplitl [R5]; · iexact R5
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.Kernel.Hand

end
-- ==== Proof.KbRunMain.lean ====
import proofs.«148436_j816043786555_1_alg».proof.Proof.Gen.Kernel.Launch
import proofs.«148436_j816043786555_1_alg».proof.Proof.Gen.Kernel.Skeleton
import proofs.«148436_j816043786555_1_alg».proof.Proof.Gen.Kernel.Points
import proofs.«148436_j816043786555_1_alg».proof.Proof.Gen.Kernel.Regions
import proofs.«148436_j816043786555_1_alg».proof.Proof.KbFrame0
import proofs.«148436_j816043786555_1_alg».proof.Proof.KbFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev W0 : Dev nD → Valuation τ sig (Elt F) := fun c b => (s₀ m ρ).mem ((c : Dev nD), b)

noncomputable abbrev V0 : (c : Dev nD) → (b : Ref sig .tc) → Buf (Elt F) ((c : Thread nD τ).loc b) := fun c b => W0 m ρ c b

noncomputable def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

noncomputable abbrev V1 : (c : Dev nD) → (b : Ref sig .tc) → Buf (Elt F) ((c : Thread nD τ).loc b) := fun c b => W1 m ρ c b

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

noncomputable abbrev W2 : Dev nD → Valuation τ sig (Elt F) := fun c => StableHlo.after hostOps1 (W1 m ρ c)

noncomputable abbrev V2 : (c : Dev nD) → (b : Ref sig .tc) → Buf (Elt F) ((c : Thread nD τ).loc b) := fun c b => W2 m ρ c b

noncomputable def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

noncomputable abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

noncomputable abbrev W4 : Dev nD → Valuation τ sig (Elt F) := fun c => StableHlo.after hostOps2 (W3 m ρ c)

noncomputable abbrev adm : (p : Fin 2) → (pcfgs (F := F) p).Adm := fun p => (cfgs p).toPCfg_adm

noncomputable def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

noncomputable abbrev Tₙ (c : Dev nD) : sProp 𝕄 := iprop(StableHlo.held (c : Thread nD τ) (Pipeline.ucRefs τ sig) (W4 m ρ c) ∗ ∃ r, prngReg c r)

set_option backward.isDefEq.respectTransparency.types false in
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (V0 m ρ) c).Φ 0
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    show (dat0 (V0 m ρ) c).Φ (Fin.last cfg0.N) ⊢ _
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (V2 m ρ) c).Φ 0
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    show (dat1 (V2 m ρ) c).Φ (Fin.last cfg1.N) ⊢ _
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

noncomputable abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

theorem W1_keep (c : Dev nD) (b : Ref sig .tc) (hb : ∀ w : Fin cfg0.W, Pipeline.arrRef spec0 w = b → (cfg0.win w).isOut = false) :
    W1 m ρ c (Proc.devRef .tc b) = m ((c : Thread nD τ).loc b) := by
  by_cases h : ∃ w, Pipeline.arrRef spec0 w = b
  · obtain ⟨w, rfl⟩ := h
    exact (W1_arr m ρ c w).trans (((dat0 (V0 m ρ) c).arrAt_in w (hb w rfl) _).trans (A_eq0 (V0 m ρ) c w))
  · exact W1_of_ne m ρ c b fun w e => h ⟨w, e⟩

theorem W2_arg (c : Dev nD) (b : Ref sig .tc) (h1 : b ∉ hostOps1_W) (h0 : ∀ w : Fin cfg0.W, Pipeline.arrRef spec0 w = b → (cfg0.win w).isOut = false) :
    W2 m ρ c (Proc.devRef .tc b) = m ((c : Thread nD τ).loc b) :=
  (StableHlo.after_of_writes_sub hostOps1 _ hostOps1_writes h1).trans (W1_keep m ρ c b h0)

theorem W3_keep (c : Dev nD) (b : Ref sig .tc) (hb : ∀ w : Fin cfg1.W, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩

/-- A buffer that neither host stretch writes and that no region has as an output holds at the end what it held at launch. -/
theorem W4_arg (c : Dev nD) (b : Ref sig .tc) (h2 : b ∉ hostOps2_W) (h3 : ∀ w : Fin cfg1.W, Pipeline.arrRef spec1 w = b → (cfg1.win w).isOut = false)
    (h1 : b ∉ hostOps1_W) (h0 : ∀ w : Fin cfg0.W, Pipeline.arrRef spec0 w = b → (cfg0.win w).isOut = false) :
    W4 m ρ c (Proc.devRef .tc b) = m ((c : Thread nD τ).loc b) :=
  (StableHlo.after_of_writes_sub hostOps2 _ hostOps2_writes h2).trans <| (W3_keep m ρ c b h3).trans (W2_arg m ρ c b h1 h0)

noncomputable def ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)

theorem args_kept {s : MemSt nD τ sig (Elt F)}
    (h : ∀ c : Dev nD, ∀ b ∈ Pipeline.ucRefs τ sig, s.mem (((c : Thread nD τ)).1, b) = W4 m ρ c b) (c : Dev nD) : ArgsKept m s c :=
  have k := fun (b : Ref sig .tc) hu h2 h3 h1 h0 => (h c _ (mem_uc b hu)).trans (W4_arg m ρ c b h2 h3 h1 h0)
  ⟨k main_arg0 (by decide) (by decide) (by decide) (by decide) (by decide),
   k main_arg1 (by decide) (by decide) (by decide) (by decide) (by decide),
   k main_arg2 (by decide) (by decide) (by decide) (by decide) (by decide),
   k main_arg3 (by decide) (by decide) (by decide) (by decide) (by decide),
   k main_arg4 (by decide) (by decide) (by decide) (by decide) (by decide),
   k main_arg5 (by decide) (by decide) (by decide) (by decide) (by decide),
   k main_arg6 (by decide) (by decide) (by decide) (by decide) (by decide),
   k main_arg7 (by decide) (by decide) (by decide) (by decide) (by decide),
   k main_arg8 (by decide) (by decide) (by decide) (by decide) (by decide),
   k main_arg9 (by decide) (by decide) (by decide) (by decide) (by decide)⟩

theorem frame : θ_run defs (onTc (τ := τ) (main (F := F))) ⟨m, fun _ => 0, ρ⟩ (fun r => ∀ c : Dev nD, ArgsKept m r.2 c) :=
  run_post m ρ fun _ h c => args_kept m ρ h c

end Cert.Kernel.Hand

end
-- ==== Proof.KiShared0.lean ====
import proofs.«148436_j816043786555_1_alg».proof.Proof.Gen.KernelIdeal.Launch
import proofs.«148436_j816043786555_1_alg».proof.Proof.Gen.KernelIdeal.Skeleton
import proofs.«148436_j816043786555_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

noncomputable abbrev cond0_1 (i : grid0.Coords) : Prop := k0_cond2 i = 1#1

theorem hcond0_1 : ∀ t : Fin cfg0.N, cond0_1 (grid0.coords t) ↔ t.val = 127 :=
  (by decide +kernel : ∀ t : Fin grid0.N, cond0_1 (grid0.coords t) ↔ t.val = 127)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem liveAt0_1 : ∀ t : Fin cfg0.N, cond0_1 (grid0.coords t) → cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

noncomputable abbrev VO0_1 : View sig .tc .vmem S1x128 .f32 := (Memref.whole cc0_stg1_0 : Memref sig .tc .vmem S1x128 .f32).view
noncomputable abbrev VO0_2 : View sig .tc .vmem S1x128 .f32 := (Memref.whole cc0_stg2_0 : Memref sig .tc .vmem S1x128 .f32).view

noncomputable abbrev ms0_0 (t : Fin cfg0.N) : Memref sig .tc .vmem S1024x128 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S1x128 .f32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S1x128 .f32 := win0_2.stage (cfg0.slots t 2)
noncomputable abbrev hs0_2 (t : Fin cfg0.N) : (ms0_2 t).IsWhole := hstage0_2 ((cfg0.slots t 2).cast nbuf0_2)

noncomputable abbrev scM0_0 : Memref sig .tc .vmem S1x128 .f32 := Memref.whole cc0_scratch0
noncomputable abbrev scM0_1 : Memref sig .tc .vmem S1x128 .f32 := Memref.whole cc0_scratch1
noncomputable abbrev VS0_0 : View sig .tc .vmem S1x128 .f32 := scM0_0.view
noncomputable abbrev VS0_1 : View sig .tc .vmem S1x128 .f32 := scM0_1.view

/-- The body's five operands: whole memrefs of the input block, the two outputs and the two running sums. -/
structure Ops0 where
  m1 : Memref sig .tc .vmem S1024x128 .f32
  h1 : m1.IsWhole
  m2 : Memref sig .tc .vmem S1x128 .f32
  h2 : m2.IsWhole
  m3 : Memref sig .tc .vmem S1x128 .f32
  h3 : m3.IsWhole
  m4 : Memref sig .tc .vmem S1x128 .f32
  h4 : m4.IsWhole
  m5 : Memref sig .tc .vmem S1x128 .f32
  h5 : m5.IsWhole

noncomputable abbrev ops0 (t : Fin cfg0.N) : Ops0 :=
  ⟨ms0_0 t, hs0_0 t, ms0_1 t, hs0_1 t, ms0_2 t, hs0_2 t, scM0_0, Memref.isWhole_whole _, scM0_1, Memref.isWhole_whole _⟩

noncomputable def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.KernelIdeal.Hand

end
-- ==== Proof.KiRun0A.lean ====
import proofs.«148436_j816043786555_1_alg».proof.Proof.KiShared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (a : Ops0) (hc0 : cond0_0 i) (hc1 : ¬cond0_1 i)
    (x0 : Vec F S1024x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) a.m1 fullShare x0 ∗ owns (c : Thread nD τ) a.m2 fullShare xi1 ∗ owns (c : Thread nD τ) a.m3 fullShare xi2 ∗ (∃ d, owns (c : Thread nD τ) a.m4 fullShare d) ∗ (∃ d, owns (c : Thread nD τ) a.m5 fullShare d)
            ∗ (iprop(owns (c : Thread nD τ) a.m1 fullShare x0 ∗ owns (c : Thread nD τ) a.m2 fullShare xi1 ∗ owns (c : Thread nD τ) a.m3 fullShare xi2 ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, fun xi1 xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := a.h1.eq_unread hf0; obtain rfl := a.h2.eq_unread hf1; obtain rfl := a.h3.eq_unread hf2
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [HS0]; · iexists _; iexact HS0
    iexists _; iexact HS1

end Cert.KernelIdeal.Hand

end
-- ==== Proof.KiRun0B.lean ====
import proofs.«148436_j816043786555_1_alg».proof.Proof.KiShared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (a : Ops0) (hc0 : ¬cond0_0 i) (hc1 : ¬cond0_1 i)
    (x0 : Vec F S1024x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) a.m1 fullShare x0 ∗ owns (c : Thread nD τ) a.m2 fullShare xi1 ∗ owns (c : Thread nD τ) a.m3 fullShare xi2 ∗ owns (c : Thread nD τ) a.m4 fullShare xs0 ∗ owns (c : Thread nD τ) a.m5 fullShare xs1
            ∗ (iprop(owns (c : Thread nD τ) a.m1 fullShare x0 ∗ owns (c : Thread nD τ) a.m2 fullShare xi1 ∗ owns (c : Thread nD τ) a.m3 fullShare xi2 ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, fun xi1 xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := a.h1.eq_unread hf0; obtain rfl := a.h2.eq_unread hf1; obtain rfl := a.h3.eq_unread hf2
    obtain rfl := a.h4.eq_unread hfs0; obtain rfl := a.h5.eq_unread hfs1
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [HS0]; · iexists _; iexact HS0
    iexists _; iexact HS1

end Cert.KernelIdeal.Hand

end
-- ==== Proof.KiRun0C.lean ====
import proofs.«148436_j816043786555_1_alg».proof.Proof.KiShared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (a : Ops0) (hc0 : ¬cond0_0 i) (hc1 : cond0_1 i)
    (x0 : Vec F S1024x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a.m1 fullShare x0 ∗ (∃ d, owns (c : Thread nD τ) a.m2 fullShare d) ∗ (∃ d, owns (c : Thread nD τ) a.m3 fullShare d) ∗ owns (c : Thread nD τ) a.m4 fullShare xs0 ∗ owns (c : Thread nD τ) a.m5 fullShare xs1
            ∗ (iprop(owns (c : Thread nD τ) a.m1 fullShare x0 ∗ (∃ f, a.m2.view.loc (c : Thread nD τ) ↦[a.m2.view.set]{fullShare} a.m2.view.writes (Elt F) f L1) ∗ (∃ f, a.m3.view.loc (c : Thread nD τ) ↦[a.m3.view.set]{fullShare} a.m3.view.writes (Elt F) f L2) ∗ (∃ f, a.m4.view.loc (c : Thread nD τ) ↦[a.m4.view.set]{fullShare} a.m4.view.writes (Elt F) f LS0) ∗ (∃ f, a.m5.view.loc (c : Thread nD τ) ↦[a.m5.view.set]{fullShare} a.m5.view.writes (Elt F) f LS1)) -∗ K ⟨⟩))
          ⊢ wp frame (wpE (defs₀ (F := F)) Variants.none c none) E (cc0__sum_kernel i a.m1 a.h1 a.m2 a.h2 a.m3 a.h3 a.m4 a.h4 a.m5 a.h5) K } := by
  refine ⟨?_, ?_, ?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := a.h1.eq_unread hf0
    obtain rfl := a.h4.eq_unread hfs0; obtain rfl := a.h5.eq_unread hfs1
    sl_exec (disch := first | exact hc0 | exact hc1)
    sl_step
    iapply Hk
    isplitl [H0]
    · iexists _; isplitr; · ipureintro; exact a.h1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KiFrame0.lean ====
import proofs.«148436_j816043786555_1_alg».proof.Proof.KiRun0A
import proofs.«148436_j816043786555_1_alg».proof.Proof.KiRun0B
import proofs.«148436_j816043786555_1_alg».proof.Proof.KiRun0C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem scover0_A_0 (c : Dev nD) (i : grid0.Coords) (a : Ops0) (hc0 : cond0_0 i) (hc1 : ¬cond0_1 i)
    (x0 : Vec F S1024x128 .f32) (y : S1x128.Idx) :
    ∃ pc ∈ (kernelRun0_A c i a hc0 hc1 x0).1, y ∈ pc.1.set :=
  View.cover_of_tiledL (kernelRun0_A c i a hc0 hc1 x0).1 S1x128.size (by sl_kernel_rfl) y

theorem scover0_A_1 (c : Dev nD) (i : grid0.Coords) (a : Ops0) (hc0 : cond0_0 i) (hc1 : ¬cond0_1 i)
    (x0 : Vec F S1024x128 .f32) (y : S1x128.Idx) :
    ∃ pc ∈ (kernelRun0_A c i a hc0 hc1 x0).2.1, y ∈ pc.1.set :=
  View.cover_of_tiledL (kernelRun0_A c i a hc0 hc1 x0).2.1 S1x128.size (by sl_kernel_rfl) y

theorem scover0_B_0 (c : Dev nD) (i : grid0.Coords) (a : Ops0) (hc0 : ¬cond0_0 i) (hc1 : ¬cond0_1 i)
    (x0 : Vec F S1024x128 .f32) (xs0 xs1 : Vec F S1x128 .f32) (y : S1x128.Idx) :
    ∃ pc ∈ (kernelRun0_B c i a hc0 hc1 x0 xs0 xs1).1, y ∈ pc.1.set :=
  View.cover_of_tiledL (kernelRun0_B c i a hc0 hc1 x0 xs0 xs1).1 S1x128.size (by sl_kernel_rfl) y

theorem scover0_B_1 (c : Dev nD) (i : grid0.Coords) (a : Ops0) (hc0 : ¬cond0_0 i) (hc1 : ¬cond0_1 i)
    (x0 : Vec F S1024x128 .f32) (xs0 xs1 : Vec F S1x128 .f32) (y : S1x128.Idx) :
    ∃ pc ∈ (kernelRun0_B c i a hc0 hc1 x0 xs0 xs1).2.1, y ∈ pc.1.set :=
  View.cover_of_tiledL (kernelRun0_B c i a hc0 hc1 x0 xs0 xs1).2.1 S1x128.size (by sl_kernel_rfl) y

theorem cover0_C_1 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).1, y ∈ pc.1.set :=
  View.cover_of_tiledL (kernelRun0_C c i a hc0 hc1 x0 xs0 xs1).1 S1x128.size (by sl_kernel_rfl) y

theorem cover0_C_2 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.1, y ∈ pc.1.set :=
  View.cover_of_tiledL (kernelRun0_C c i a hc0 hc1 x0 xs0 xs1).2.1 S1x128.size (by sl_kernel_rfl) y

theorem scover0_C_0 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.2.1, y ∈ pc.1.set :=
  View.cover_of_tiledL (kernelRun0_C c i a hc0 hc1 x0 xs0 xs1).2.2.1 S1x128.size (by sl_kernel_rfl) y

theorem scover0_C_1 (c : Dev nD) (i : grid0.Coords) (a : Ops0) (hc0 : ¬cond0_0 i) (hc1 : cond0_1 i)
    (x0 : Vec F S1024x128 .f32) (xs0 xs1 : Vec F S1x128 .f32) (y : S1x128.Idx) :
    ∃ pc ∈ (kernelRun0_C c i a hc0 hc1 x0 xs0 xs1).2.2.2.1, y ∈ pc.1.set :=
  View.cover_of_tiledL (kernelRun0_C c i a hc0 hc1 x0 xs0 xs1).2.2.2.1 S1x128.size (by sl_kernel_rfl) y

theorem hz0 : (![0, 0] : Fin 2 → Nat) = fun _ => 0 := funext fun a => by fin_cases a <;> rfl

/-- What a control case's stores leave in a buffer, read back over anything: the named payload of the point's block and of what the buffer held before. -/
theorem rd_sout0_A_0 (c : Dev nD) (i : grid0.Coords) (a : Ops0) (hc0 : cond0_0 i) (hc1 : ¬cond0_1 i) (x0 : Vec F S1024x128 .f32) (m : Memref sig .tc .vmem S1x128 .f32) (f) :
    m.view.read (Elt F) (m.view.writes (Elt F) f (kernelRun0_A c i a hc0 hc1 x0).1) = k0_pay3 x0 k0_pay1 := by
  rw [View.read_writes_eq_canon _ _ _ (scover0_A_0 c i a hc0 hc1 x0)]
  unfold kernelRun0_A
  dsimp only
  sl_unfold_words
  rw [View.canon_cons_unit_zero (S := S1x128) hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_sout0_A_1 (c : Dev nD) (i : grid0.Coords) (a : Ops0) (hc0 : cond0_0 i) (hc1 : ¬cond0_1 i) (x0 : Vec F S1024x128 .f32) (m : Memref sig .tc .vmem S1x128 .f32) (f) :
    m.view.read (Elt F) (m.view.writes (Elt F) f (kernelRun0_A c i a hc0 hc1 x0).2.1) = k0_pay4 x0 k0_pay2 := by
  rw [View.read_writes_eq_canon _ _ _ (scover0_A_1 c i a hc0 hc1 x0)]
  unfold kernelRun0_A
  dsimp only
  sl_unfold_words
  rw [View.canon_cons_unit_zero (S := S1x128) hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_sout0_B_0 (c : Dev nD) (i : grid0.Coords) (a : Ops0) (hc0 : ¬cond0_0 i) (hc1 : ¬cond0_1 i) (x0 : Vec F S1024x128 .f32) (xs0 xs1 : Vec F S1x128 .f32) (m : Memref sig .tc .vmem S1x128 .f32) (f) :
    m.view.read (Elt F) (m.view.writes (Elt F) f (kernelRun0_B c i a hc0 hc1 x0 xs0 xs1).1) = k0_pay3 x0 xs0 := by
  rw [View.read_writes_eq_canon _ _ _ (scover0_B_0 c i a hc0 hc1 x0 xs0 xs1)]
  unfold kernelRun0_B
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_B_1 (c : Dev nD) (i : grid0.Coords) (a : Ops0) (hc0 : ¬cond0_0 i) (hc1 : ¬cond0_1 i) (x0 : Vec F S1024x128 .f32) (xs0 xs1 : Vec F S1x128 .f32) (m : Memref sig .tc .vmem S1x128 .f32) (f) :
    m.view.read (Elt F) (m.view.writes (Elt F) f (kernelRun0_B c i a hc0 hc1 x0 xs0 xs1).2.1) = k0_pay4 x0 xs1 := by
  rw [View.read_writes_eq_canon _ _ _ (scover0_B_1 c i a hc0 hc1 x0 xs0 xs1)]
  unfold kernelRun0_B
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_C_0 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.2.1) = k0_pay3 x0 xs0 := by
  rw [View.read_writes_eq_canon _ _ _ (scover0_C_0 c i a hc0 hc1 x0 xs0 xs1)]
  unfold kernelRun0_C
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_sout0_C_1 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.2.2.1) = k0_pay4 x0 xs1 := by
  rw [View.read_writes_eq_canon _ _ _ (scover0_C_1 c i a hc0 hc1 x0 xs0 xs1)]
  unfold kernelRun0_C
  dsimp only
  sl_unfold_words
  rw [View.canon_unit_zero hz0]
  simp only [View.readAt_eq_ld, a.h1.read_unread, a.h4.read_unread, a.h5.read_unread, View.ld_unit_zero (S := S1024x128) hz0, View.ld_unit_zero (S := S1x128) hz0]

theorem rd_out0_C_1 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).1) = k0_pay3 x0 xs0 := by
  rw [View.read_writes_eq_canon _ _ _ (cover0_C_1 c i a hc0 hc1 x0 xs0 xs1)]
  unfold kernelRun0_C
  dsimp only
  sl_unfold_words
  rw [View.canon_unit_zero hz0, View.readCov_unit_zero (S := S1x128) _ hz0]
  simp only [View.readAt_eq_ld, a.h1.read_unread, a.h4.read_unread, a.h5.read_unread, View.ld_unit_zero (S := S1024x128) hz0, View.ld_unit_zero (S := S1x128) hz0]

theorem rd_out0_C_2 (c : Dev nD) (i : grid0.Coords) (a : Ops0) (hc0 : ¬cond0_0 i) (hc1 : cond0_1 i) (x0 : Vec F S1024x128 .f32) (xs0 xs1 : Vec F S1x128 .f32) (m : Memref sig .tc .vmem S1x128 .f32) (f) :
    m.view.read (Elt F) (m.view.writes (Elt F) f (kernelRun0_C c i a hc0 hc1 x0 xs0 xs1).2.1) = k0_pay4 x0 xs1 := by
  rw [View.read_writes_eq_canon _ _ _ (cover0_C_2 c i a hc0 hc1 x0 xs0 xs1)]
  unfold kernelRun0_C
  dsimp only
  sl_unfold_words
  rw [View.canon_unit_zero hz0, View.readCov_unit_zero (S := S1x128) _ hz0]
  simp only [View.readAt_eq_ld, a.h1.read_unread, a.h4.read_unread, a.h5.read_unread, View.ld_unit_zero (S := S1024x128) hz0, View.ld_unit_zero (S := S1x128) hz0]

/-- The two running column sums (of the input and of its square) after grid point `n`: each point adds its tile's column sums to what the point before left, the first to zero. -/
noncomputable def scr0 (c : Dev nD) : (n : ℕ) → n < cfg0.N → Vec F S1x128 .f32 × Vec F S1x128 .f32
  | 0, hn => (k0_pay3 (iblk0 V c 0 ⟨0, hn⟩) k0_pay1, k0_pay4 (iblk0 V c 0 ⟨0, hn⟩) k0_pay2)
  | n + 1, hn => (k0_pay3 (iblk0 V c 0 ⟨n + 1, hn⟩) (scr0 c n (Nat.lt_of_succ_lt hn)).1, k0_pay4 (iblk0 V c 0 ⟨n + 1, hn⟩) (scr0 c n (Nat.lt_of_succ_lt hn)).2)

theorem scr0_first (c : Dev nD) (t : Fin cfg0.N) (h0 : t.val = 0) :
    scr0 V c t.val t.isLt = (k0_pay3 (iblk0 V c 0 t) k0_pay1, k0_pay4 (iblk0 V c 0 t) k0_pay2) := by
  obtain ⟨n, hn⟩ := t
  cases n with
  | zero => rfl
  | succ n => exact absurd h0 (Nat.succ_ne_zero n)

theorem scr0_next (c : Dev nD) (t : Fin cfg0.N) (h0 : ¬t.val = 0) :
    scr0 V c t.val t.isLt = (k0_pay3 (iblk0 V c 0 t) (scr0 V c (t.val - 1) (Nat.lt_of_le_of_lt (Nat.sub_le _ _) t.isLt)).1, k0_pay4 (iblk0 V c 0 t) (scr0 V c (t.val - 1) (Nat.lt_of_le_of_lt (Nat.sub_le _ _) t.isLt)).2) := by
  obtain ⟨n, hn⟩ := t
  cases n with
  | zero => exact absurd rfl h0
  | succ n => rfl

noncomputable def PhiS0 (c : Dev nD) : (n : ℕ) → n ≤ cfg0.N → sProp 𝕄
  | 0, _ => Pipeline.ΦA spec0 c
  | n + 1, hn => iprop(iprop(owns (c : Thread nD τ) scM0_0 fullShare ((scr0 V c n hn).1) ∗ owns (c : Thread nD τ) scM0_1 fullShare ((scr0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((scr0 V c n hn).1) ∗ owns (c : Thread nD τ) scM0_1 fullShare ((scr0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((scr0 V c (n - 1) (by omega)).1) ∗ owns (c : Thread nD τ) scM0_1 fullShare ((scr0 V c (n - 1) (by omega)).2) ∗ Rest0 (F := F) c) ∗ (∃ r, prngReg c r)) := by
  cases n with
  | zero => exact absurd rfl hz
  | succ n => rfl

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scr0 V c t.val t.isLt).1
    | ⟨2, _⟩ => (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (scr0 V c t.val t.isLt).1 := by dsimp only [dat0]
theorem after0_2 (c : Dev nD) (t : Fin cfg0.N) : (dat0 V c).after 2 t = (scr0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 127 := by omega
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [scr0_first V c t h0]; (try dsimp only)
    rw [PhiS0_castSucc V c t, PhiS0_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) (ops0 t) ((hcond0_0 t).mpr h0) (fun h => h1 ((hcond0_1 t).mp h)) (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact rd_sout0_A_0 c _ _ _ _ _ _ _
        isplitl [HS1]
        · unfold owns; iexists _; isplitr
          swap; · iexact HS1
          ipureintro; exact rd_sout0_A_1 c _ _ _ _ _ _ _
        iexact HR
      iexact Hg
    isplitl [Ho]; · iexact Ho
    isplitl [H0]; · iexact H0
    isplitl [H1]; · iexists _; iexact H1
    iexists _; iexact H2
  · by_cases h1 : t.val = 127
    · rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [scr0_next V c t h0]; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩⟩
      iapply ((kernelRun0_C c (grid0.coords t) (ops0 t) (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact rd_sout0_C_0 c _ _ _ _ _ _ _ _ _
          isplitl [HS1]
          · unfold owns; iexists _; isplitr
            swap; · iexact HS1
            ipureintro; exact rd_sout0_C_1 c _ _ _ _ _ _ _ _ _
          iexact HR
        iexact Hg
      isplitl [Ho]; · iexact Ho
      isplitl [H0]; · iexact H0
      isplitl [H1]
      · unfold owns; iexists _; isplitr
        swap; · iexact H1
        ipureintro; exact rd_out0_C_1 c _ _ _ _ _ _ _ _ _
      unfold owns; iexists _; isplitr
      swap; · iexact H2
      ipureintro; exact rd_out0_C_2 c _ _ _ _ _ _ _ _ _
    · rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [scr0_next V c t h0]; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩⟩
      iapply ((kernelRun0_B c (grid0.coords t) (ops0 t) (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact rd_sout0_B_0 c _ _ _ _ _ _ _ _ _
          isplitl [HS1]
          · unfold owns; iexists _; isplitr
            swap; · iexact HS1
            ipureintro; exact rd_sout0_B_1 c _ _ _ _ _ _ _ _ _
          iexact HR
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 128 := N_0; omega)

end Cert.KernelIdeal.Hand

end
-- ==== Proof.KiShared1.lean ====
import proofs.«148436_j816043786555_1_alg».proof.Proof.Gen.KernelIdeal.Launch
import proofs.«148436_j816043786555_1_alg».proof.Proof.Gen.KernelIdeal.Skeleton
import proofs.«148436_j816043786555_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

noncomputable abbrev cond1_1 (i : grid1.Coords) : Prop := k1_cond2 i = 1#1

theorem hcond1_1 : ∀ t : Fin cfg1.N, cond1_1 (grid1.coords t) ↔ t.val = 127 :=
  (by decide +kernel : ∀ t : Fin grid1.N, cond1_1 (grid1.coords t) ↔ t.val = 127)

theorem lt12 : ∀ w : Fin cfg1.W, w.val < 12 →
    w = 0 ∨ w = 1 ∨ w = 2 ∨ w = 3 ∨ w = 4 ∨ w = 5 ∨ w = 6 ∨ w = 7 ∨ w = 8 ∨ w = 9 ∨ w = 10 ∨ w = 11 := by decide

theorem liveAt1_in (w : Fin cfg1.W) (hw : w.val < 12) (i : grid1.Coords) : cfg1.idle w i = false := by
  rcases lt12 w hw with rfl | rfl | rfl | rfl | rfl | rfl | rfl | rfl | rfl | rfl | rfl | rfl <;> rfl

theorem idleAt1_12 : ∀ t : Fin cfg1.N, ¬cond1_1 (grid1.coords t) → cfg1.idle 12 (grid1.coords t) = true := by decide +kernel

theorem noFlush1_12 : ∀ t : Fin cfg1.N, ¬cond1_1 (grid1.coords t) → (cfg1.win 12).flush t = false := by decide +kernel

theorem liveAt1_12 : ∀ t : Fin cfg1.N, cond1_1 (grid1.coords t) → cfg1.idle 12 (grid1.coords t) = false := by decide +kernel

noncomputable abbrev VO1_12 : View sig .tc .vmem S1x1 .f32 := (Memref.whole cc1_stg12_0 : Memref sig .tc .vmem S1x1 .f32).view

noncomputable abbrev ms1_0 (t : Fin cfg1.N) : Memref sig .tc .vmem S1024x128 .f32 := win1_0.stage (cfg1.slots t 0)
noncomputable abbrev hs1_0 (t : Fin cfg1.N) : (ms1_0 t).IsWhole := hstage1_0 ((cfg1.slots t 0).cast nbuf1_0)
noncomputable abbrev ms1_1 (t : Fin cfg1.N) : Memref sig .tc .vmem S1024x128 .f32 := win1_1.stage (cfg1.slots t 1)
noncomputable abbrev hs1_1 (t : Fin cfg1.N) : (ms1_1 t).IsWhole := hstage1_1 ((cfg1.slots t 1).cast nbuf1_1)
noncomputable abbrev ms1_2 (t : Fin cfg1.N) : Memref sig .tc .vmem S128x512 .f32 := win1_2.stage (cfg1.slots t 2)
noncomputable abbrev hs1_2 (t : Fin cfg1.N) : (ms1_2 t).IsWhole := hstage1_2 ((cfg1.slots t 2).cast nbuf1_2)
noncomputable abbrev ms1_3 (t : Fin cfg1.N) : Memref sig .tc .vmem S1x512 .f32 := win1_3.stage (cfg1.slots t 3)
noncomputable abbrev hs1_3 (t : Fin cfg1.N) : (ms1_3 t).IsWhole := hstage1_3 ((cfg1.slots t 3).cast nbuf1_3)
noncomputable abbrev ms1_4 (t : Fin cfg1.N) : Memref sig .tc .vmem S512x128 .f32 := win1_4.stage (cfg1.slots t 4)
noncomputable abbrev hs1_4 (t : Fin cfg1.N) : (ms1_4 t).IsWhole := hstage1_4 ((cfg1.slots t 4).cast nbuf1_4)
noncomputable abbrev ms1_5 (t : Fin cfg1.N) : Memref sig .tc .vmem S1x128 .f32 := win1_5.stage (cfg1.slots t 5)
noncomputable abbrev hs1_5 (t : Fin cfg1.N) : (ms1_5 t).IsWhole := hstage1_5 ((cfg1.slots t 5).cast nbuf1_5)
noncomputable abbrev ms1_6 (t : Fin cfg1.N) : Memref sig .tc .vmem S128x512 .f32 := win1_6.stage (cfg1.slots t 6)
noncomputable abbrev hs1_6 (t : Fin cfg1.N) : (ms1_6 t).IsWhole := hstage1_6 ((cfg1.slots t 6).cast nbuf1_6)
noncomputable abbrev ms1_7 (t : Fin cfg1.N) : Memref sig .tc .vmem S1x512 .f32 := win1_7.stage (cfg1.slots t 7)
noncomputable abbrev hs1_7 (t : Fin cfg1.N) : (ms1_7 t).IsWhole := hstage1_7 ((cfg1.slots t 7).cast nbuf1_7)
noncomputable abbrev ms1_8 (t : Fin cfg1.N) : Memref sig .tc .vmem S512x128 .f32 := win1_8.stage (cfg1.slots t 8)
noncomputable abbrev hs1_8 (t : Fin cfg1.N) : (ms1_8 t).IsWhole := hstage1_8 ((cfg1.slots t 8).cast nbuf1_8)
noncomputable abbrev ms1_9 (t : Fin cfg1.N) : Memref sig .tc .vmem S1x128 .f32 := win1_9.stage (cfg1.slots t 9)
noncomputable abbrev hs1_9 (t : Fin cfg1.N) : (ms1_9 t).IsWhole := hstage1_9 ((cfg1.slots t 9).cast nbuf1_9)
noncomputable abbrev ms1_10 (t : Fin cfg1.N) : Memref sig .tc .vmem S1x128 .f32 := win1_10.stage (cfg1.slots t 10)
noncomputable abbrev hs1_10 (t : Fin cfg1.N) : (ms1_10 t).IsWhole := hstage1_10 ((cfg1.slots t 10).cast nbuf1_10)
noncomputable abbrev ms1_11 (t : Fin cfg1.N) : Memref sig .tc .vmem S1x128 .f32 := win1_11.stage (cfg1.slots t 11)
noncomputable abbrev hs1_11 (t : Fin cfg1.N) : (ms1_11 t).IsWhole := hstage1_11 ((cfg1.slots t 11).cast nbuf1_11)
noncomputable abbrev ms1_12 (t : Fin cfg1.N) : Memref sig .tc .vmem S1x1 .f32 := win1_12.stage (cfg1.slots t 12)
noncomputable abbrev hs1_12 (t : Fin cfg1.N) : (ms1_12 t).IsWhole := hstage1_12 ((cfg1.slots t 12).cast nbuf1_12)

noncomputable abbrev scM1_0 : Memref sig .tc .vmem S1x1 .f32 := Memref.whole cc1_scratch0

noncomputable abbrev VS1_0 : View sig .tc .vmem S1x1 .f32 := scM1_0.view

/-- The body's fourteen operands: whole memrefs of the twelve inputs, the output and the running total. -/
structure Ops1 where
  m1 : Memref sig .tc .vmem S1024x128 .f32
  h1 : m1.IsWhole
  m2 : Memref sig .tc .vmem S1024x128 .f32
  h2 : m2.IsWhole
  m3 : Memref sig .tc .vmem S128x512 .f32
  h3 : m3.IsWhole
  m4 : Memref sig .tc .vmem S1x512 .f32
  h4 : m4.IsWhole
  m5 : Memref sig .tc .vmem S512x128 .f32
  h5 : m5.IsWhole
  m6 : Memref sig .tc .vmem S1x128 .f32
  h6 : m6.IsWhole
  m7 : Memref sig .tc .vmem S128x512 .f32
  h7 : m7.IsWhole
  m8 : Memref sig .tc .vmem S1x512 .f32
  h8 : m8.IsWhole
  m9 : Memref sig .tc .vmem S512x128 .f32
  h9 : m9.IsWhole
  m10 : Memref sig .tc .vmem S1x128 .f32
  h10 : m10.IsWhole
  m11 : Memref sig .tc .vmem S1x128 .f32
  h11 : m11.IsWhole
  m12 : Memref sig .tc .vmem S1x128 .f32
  h12 : m12.IsWhole
  m13 : Memref sig .tc .vmem S1x1 .f32
  h13 : m13.IsWhole
  m14 : Memref sig .tc .vmem S1x1 .f32
  h14 : m14.IsWhole

noncomputable abbrev ops1 (t : Fin cfg1.N) : Ops1 :=
  ⟨ms1_0 t, hs1_0 t, ms1_1 t, hs1_1 t, ms1_2 t, hs1_2 t, ms1_3 t, hs1_3 t, ms1_4 t, hs1_4 t, ms1_5 t, hs1_5 t, ms1_6 t, hs1_6 t, ms1_7 t, hs1_7 t, ms1_8 t, hs1_8 t, ms1_9 t, hs1_9 t, ms1_10 t, hs1_10 t, ms1_11 t, hs1_11 t, ms1_12 t, hs1_12 t, scM1_0, Memref.isWhole_whole _⟩

/-- The twelve input blocks of one grid point. -/
structure Blk1 (F : FTy → Type) where
  x0 : Vec F S1024x128 .f32
  x1 : Vec F S1024x128 .f32
  x2 : Vec F S128x512 .f32
  x3 : Vec F S1x512 .f32
  x4 : Vec F S512x128 .f32
  x5 : Vec F S1x128 .f32
  x6 : Vec F S128x512 .f32
  x7 : Vec F S1x512 .f32
  x8 : Vec F S512x128 .f32
  x9 : Vec F S1x128 .f32
  x10 : Vec F S1x128 .f32
  x11 : Vec F S1x128 .f32

noncomputable def step1 (xb yb : Vec F S1024x128 .f32) (W1m : Vec F S128x512 .f32) (b1m : Vec F S1x512 .f32)
    (W2m : Vec F S512x128 .f32) (b2m : Vec F S1x128 .f32) (W1v : Vec F S128x512 .f32) (b1v : Vec F S1x512 .f32)
    (W2v : Vec F S512x128 .f32) (b2v : Vec F S1x128 .f32) (ym y2m : Vec F S1x128 .f32) (prev : Vec F S1x1 .f32) :
    FVec F S1x1 .f32 :=
  k1_pay1
    (k1_pay12 (k1_pay3 xb) (k1_pay4 b2m) (k1_pay5 W1v) (k1_pay6 b1v) (k1_pay7 W2v) (k1_pay8 b2v) (k1_pay9 xb W1m b1m W2m) ym y2m)
    (k1_pay13 (k1_pay3 xb) yb (k1_pay4 b2m) (k1_pay5 W1v) (k1_pay6 b1v) (k1_pay7 W2v) (k1_pay8 b2v) (k1_pay9 xb W1m b1m W2m))
    prev

noncomputable abbrev someAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KiRun1A.lean ====
import proofs.«148436_j816043786555_1_alg».proof.Proof.KiShared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (a : Ops1) (hc0 : cond1_0 i) (hc1 : ¬cond1_1 i)
    (x : Blk1 F) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ d, owns (c : Thread nD τ) a.m14 fullShare d)
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨[], ?_, fun xi12 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h13.eq_unread hf12
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]
    · iexists _; isplitr; · ipureintro; exact a.h13.read_unread _
      iexact H12
    iexists _; iexact HS0

end Cert.KernelIdeal.Hand

end
-- ==== Proof.KiRun1B.lean ====
import proofs.«148436_j816043786555_1_alg».proof.Proof.KiRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (a : Ops1) (hc0 : ¬cond1_0 i) (hc1 : ¬cond1_1 i)
    (x : Blk1 F) (xs0 : Vec F S1x1 .f32) :
    Σ' (L12 : List (View.Piece (Elt F) S1x1 .f32)), { LS0 : List (View.Piece (Elt F) S1x1 .f32) //
      ∀ (xi12 : Vec F S1x1 .f32) (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ owns (c : Thread nD τ) a.m14 fullShare xs0
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare xi12 ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨[], ?_, fun xi12 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h13.eq_unread hf12
    obtain rfl := a.h14.eq_unread hfs0
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]
    · iexists _; isplitr; · ipureintro; exact a.h13.read_unread _
      iexact H12
    iexists _; iexact HS0

end Cert.KernelIdeal.Hand

end
-- ==== Proof.KiRun1C.lean ====
import proofs.«148436_j816043786555_1_alg».proof.Proof.KiRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (a : Ops1) (hc0 : ¬cond1_0 i) (hc1 : cond1_1 i)
    (x : Blk1 F) (xs0 : Vec F S1x1 .f32) :
    Σ' (L12 : List (View.Piece (Elt F) S1x1 .f32)), { LS0 : List (View.Piece (Elt F) S1x1 .f32) //
      ∀ (E : Set ℕ) (K : PUnit → sProp 𝕄),
        iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ (∃ d, owns (c : Thread nD τ) a.m13 fullShare d) ∗ owns (c : Thread nD τ) a.m14 fullShare xs0
            ∗ (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ (∃ f, a.m13.view.loc (c : Thread nD τ) ↦[a.m13.view.set]{fullShare} a.m13.view.writes (Elt F) f L12) ∗ (∃ f, a.m14.view.loc (c : Thread nD τ) ↦[a.m14.view.set]{fullShare} a.m14.view.writes (Elt F) f LS0)) -∗ K ⟨⟩))
          ⊢ wp frame (wpE (defs₀ (F := F)) Variants.none c none) E (cc1__main_kernel i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := a.h1.eq_unread hf0
    obtain rfl := a.h2.eq_unread hf1
    obtain rfl := a.h3.eq_unread hf2
    obtain rfl := a.h4.eq_unread hf3
    obtain rfl := a.h5.eq_unread hf4
    obtain rfl := a.h6.eq_unread hf5
    obtain rfl := a.h7.eq_unread hf6
    obtain rfl := a.h8.eq_unread hf7
    obtain rfl := a.h9.eq_unread hf8
    obtain rfl := a.h10.eq_unread hf9
    obtain rfl := a.h11.eq_unread hf10
    obtain rfl := a.h12.eq_unread hf11
    obtain rfl := a.h14.eq_unread hfs0
    sl_exec (disch := first | exact hc0 | exact hc1)
    sl_step
    iapply Hk
    isplitl [H0]
    · iexists _; isplitr; · ipureintro; exact a.h1.read_unread _
      iexact H0
    isplitl [H1]
    · iexists _; isplitr; · ipureintro; exact a.h2.read_unread _
      iexact H1
    isplitl [H2]
    · iexists _; isplitr; · ipureintro; exact a.h3.read_unread _
      iexact H2
    isplitl [H3]
    · iexists _; isplitr; · ipureintro; exact a.h4.read_unread _
      iexact H3
    isplitl [H4]
    · iexists _; isplitr; · ipureintro; exact a.h5.read_unread _
      iexact H4
    isplitl [H5]
    · iexists _; isplitr; · ipureintro; exact a.h6.read_unread _
      iexact H5
    isplitl [H6]
    · iexists _; isplitr; · ipureintro; exact a.h7.read_unread _
      iexact H6
    isplitl [H7]
    · iexists _; isplitr; · ipureintro; exact a.h8.read_unread _
      iexact H7
    isplitl [H8]
    · iexists _; isplitr; · ipureintro; exact a.h9.read_unread _
      iexact H8
    isplitl [H9]
    · iexists _; isplitr; · ipureintro; exact a.h10.read_unread _
      iexact H9
    isplitl [H10]
    · iexists _; isplitr; · ipureintro; exact a.h11.read_unread _
      iexact H10
    isplitl [H11]
    · iexists _; isplitr; · ipureintro; exact a.h12.read_unread _
      iexact H11
    isplitl [H12]; · iexists _; iexact H12
    iexists _; iexact HS0

end Cert.KernelIdeal.Hand

end
-- ==== Proof.KiFrame1.lean ====
import proofs.«148436_j816043786555_1_alg».proof.Proof.KiRun1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev blk1 (c : Dev nD) (t : Fin cfg1.N) : Blk1 F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t⟩

theorem scover1_A_0 (c : Dev nD) (i : grid1.Coords) (a : Ops1) (hc0 : cond1_0 i) (hc1 : ¬cond1_1 i)
    (x : Blk1 F) (y : S1x1.Idx) :
    ∃ pc ∈ (kernelRun1_A c i a hc0 hc1 x).2.1, y ∈ pc.1.set :=
  View.cover_of_tiledL (kernelRun1_A c i a hc0 hc1 x).2.1 S1x1.size (by sl_kernel_rfl) y

theorem scover1_B_0 (c : Dev nD) (i : grid1.Coords) (a : Ops1) (hc0 : ¬cond1_0 i) (hc1 : ¬cond1_1 i)
    (x : Blk1 F) (xs0 : Vec F S1x1 .f32) (y : S1x1.Idx) :
    ∃ pc ∈ (kernelRun1_B c i a hc0 hc1 x xs0).2.1, y ∈ pc.1.set :=
  View.cover_of_tiledL (kernelRun1_B c i a hc0 hc1 x xs0).2.1 S1x1.size (by sl_kernel_rfl) y

theorem cover1_C_12 (c : Dev nD) (i : grid1.Coords) (a : Ops1) (hc0 : ¬cond1_0 i) (hc1 : cond1_1 i)
    (x : Blk1 F) (xs0 : Vec F S1x1 .f32) (y : S1x1.Idx) :
    ∃ pc ∈ (kernelRun1_C c i a hc0 hc1 x xs0).1, y ∈ pc.1.set :=
  View.cover_of_tiledL (kernelRun1_C c i a hc0 hc1 x xs0).1 S1x1.size (by sl_kernel_rfl) y

theorem scover1_C_0 (c : Dev nD) (i : grid1.Coords) (a : Ops1) (hc0 : ¬cond1_0 i) (hc1 : cond1_1 i)
    (x : Blk1 F) (xs0 : Vec F S1x1 .f32) (y : S1x1.Idx) :
    ∃ pc ∈ (kernelRun1_C c i a hc0 hc1 x xs0).2.1, y ∈ pc.1.set :=
  View.cover_of_tiledL (kernelRun1_C c i a hc0 hc1 x xs0).2.1 S1x1.size (by sl_kernel_rfl) y

theorem hz2 : (![0, 0] : Fin 2 → Nat) = fun _ => 0 := funext fun a => by fin_cases a <;> rfl

set_option maxHeartbeats 1000000 in
theorem rd_sout1_A_0 (c : Dev nD) (i : grid1.Coords) (a : Ops1) (hc0 : cond1_0 i) (hc1 : ¬cond1_1 i)
    (x : Blk1 F) (m : Memref sig .tc .vmem S1x1 .f32) (f) :
    m.view.read (Elt F) (m.view.writes (Elt F) f (kernelRun1_A c i a hc0 hc1 x).2.1) = step1 x.x0 x.x1 x.x2 x.x3 x.x4 x.x5 x.x6 x.x7 x.x8 x.x9 x.x10 x.x11 (k1_pay2 (F := F)) := by
  rw [View.read_writes_eq_canon _ _ _ (scover1_A_0 c i a hc0 hc1 x)]
  unfold kernelRun1_A; dsimp only; sl_unfold_words
  rw [View.canon_cons_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_sout1_B_0 (c : Dev nD) (i : grid1.Coords) (a : Ops1) (hc0 : ¬cond1_0 i) (hc1 : ¬cond1_1 i)
    (x : Blk1 F) (xs0 : Vec F S1x1 .f32) (m : Memref sig .tc .vmem S1x1 .f32) (f) :
    m.view.read (Elt F) (m.view.writes (Elt F) f (kernelRun1_B c i a hc0 hc1 x xs0).2.1) = step1 x.x0 x.x1 x.x2 x.x3 x.x4 x.x5 x.x6 x.x7 x.x8 x.x9 x.x10 x.x11 xs0 := by
  rw [View.read_writes_eq_canon _ _ _ (scover1_B_0 c i a hc0 hc1 x xs0)]
  unfold kernelRun1_B; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_sout1_C_0 (c : Dev nD) (i : grid1.Coords) (a : Ops1) (hc0 : ¬cond1_0 i) (hc1 : cond1_1 i)
    (x : Blk1 F) (xs0 : Vec F S1x1 .f32) (m : Memref sig .tc .vmem S1x1 .f32) (f) :
    m.view.read (Elt F) (m.view.writes (Elt F) f (kernelRun1_C c i a hc0 hc1 x xs0).2.1) = step1 x.x0 x.x1 x.x2 x.x3 x.x4 x.x5 x.x6 x.x7 x.x8 x.x9 x.x10 x.x11 xs0 := by
  rw [View.read_writes_eq_canon _ _ _ (scover1_C_0 c i a hc0 hc1 x xs0)]
  unfold kernelRun1_C; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

set_option maxHeartbeats 1000000 in
theorem rd_out1_C_12 (c : Dev nD) (i : grid1.Coords) (a : Ops1) (hc0 : ¬cond1_0 i) (hc1 : cond1_1 i)
    (x : Blk1 F) (xs0 : Vec F S1x1 .f32) (m : Memref sig .tc .vmem S1x1 .f32) (f) :
    m.view.read (Elt F) (m.view.writes (Elt F) f (kernelRun1_C c i a hc0 hc1 x xs0).1) = step1 x.x0 x.x1 x.x2 x.x3 x.x4 x.x5 x.x6 x.x7 x.x8 x.x9 x.x10 x.x11 xs0 := by
  rw [View.read_writes_eq_canon _ _ _ (cover1_C_12 c i a hc0 hc1 x xs0)]
  unfold kernelRun1_C; dsimp only; sl_unfold_words
  rw [View.canon_unit_zero (S := S1x1) hz2]
  simp only [View.readAt_eq_ld, a.h1.read_unread, a.h2.read_unread, a.h3.read_unread, a.h4.read_unread, a.h5.read_unread, a.h6.read_unread, a.h7.read_unread, a.h8.read_unread, a.h9.read_unread, a.h10.read_unread, a.h11.read_unread, a.h12.read_unread, a.h14.read_unread, View.readCov_unit_zero (S := S1x1) _ hz2, View.ld_unit_zero (S := S1024x128) hz2, View.ld_unit_zero (S := S128x512) hz2, View.ld_unit_zero (S := S1x512) hz2, View.ld_unit_zero (S := S512x128) hz2, View.ld_unit_zero (S := S1x128) hz2, View.ld_unit_zero (S := S1x1) hz2, step1]

/-- One point's update of the running total, over the point's twelve input blocks as one record. -/
noncomputable def stepB (x : Blk1 F) (p : Vec F S1x1 .f32) : Vec F S1x1 .f32 :=
  step1 x.x0 x.x1 x.x2 x.x3 x.x4 x.x5 x.x6 x.x7 x.x8 x.x9 x.x10 x.x11 p

/-- The running total after grid point `n`: each point adds its tile's total to what the point before left, the first to zero. -/
noncomputable def acc1 (c : Dev nD) : (n : ℕ) → n < cfg1.N → Vec F S1x1 .f32
  | 0, hn => stepB (blk1 V c ⟨0, hn⟩) k1_pay2
  | n + 1, hn => stepB (blk1 V c ⟨n + 1, hn⟩) (acc1 c n (Nat.lt_of_succ_lt hn))

theorem acc1_first (c : Dev nD) (t : Fin cfg1.N) (h0 : t.val = 0) : acc1 V c t.val t.isLt = stepB (blk1 V c t) k1_pay2 := by
  obtain ⟨n, hn⟩ := t
  cases n with
  | zero => rfl
  | succ n => exact absurd h0 (Nat.succ_ne_zero n)

theorem acc1_next (c : Dev nD) (t : Fin cfg1.N) (h0 : ¬t.val = 0) :
    acc1 V c t.val t.isLt = stepB (blk1 V c t) (acc1 V c (t.val - 1) (Nat.lt_of_le_of_lt (Nat.sub_le _ _) t.isLt)) := by
  obtain ⟨n, hn⟩ := t
  cases n with
  | zero => exact absurd rfl h0
  | succ n => rfl

noncomputable def PhiS1 (c : Dev nD) : (n : ℕ) → n ≤ cfg1.N → sProp 𝕄
  | 0, _ => Pipeline.ΦA spec1 c
  | n + 1, hn => iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(someAt (F := F) c cc0_stg0_0 ∗ someAt (F := F) c cc0_stg0_1 ∗ someAt (F := F) c cc0_stg1_0 ∗ someAt (F := F) c cc0_stg2_0 ∗ someAt (F := F) c cc0_scratch0 ∗ someAt (F := F) c cc0_scratch1 ∗ owns (c : Thread nD τ) scM1_0 fullShare (acc1 V c (n - 1) (by omega))) ∗ (∃ r, prngReg c r)) := by
  cases n with
  | zero => exact absurd rfl hz
  | succ n => rfl

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_12 (c : Dev nD) (t : Fin cfg1.N) : (dat1 V c).after 12 t = acc1 V c t.val t.isLt := by dsimp only [dat1]

theorem before1_all (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) ∧ (∀ d, (dat1 V c).before 9 t d = iblk1 V c 9 t) ∧ (∀ d, (dat1 V c).before 10 t d = iblk1 V c 10 t) ∧ (∀ d, (dat1 V c).before 11 t d = iblk1 V c 11 t) := by
  refine ⟨?_, ?_, ?_, ?_, ?_, ?_, ?_, ?_, ?_, ?_, ?_, ?_⟩ <;> intro d <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; dsimp only [dat1]; try rfl)

theorem leaves1_all (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t)
    ∧ (dat1 V c).leavesExact 6 t = owns (c : Thread nD τ) (ms1_6 t) fullShare (iblk1 V c 6 t)
    ∧ (dat1 V c).leavesExact 7 t = owns (c : Thread nD τ) (ms1_7 t) fullShare (iblk1 V c 7 t)
    ∧ (dat1 V c).leavesExact 8 t = owns (c : Thread nD τ) (ms1_8 t) fullShare (iblk1 V c 8 t)
    ∧ (dat1 V c).leavesExact 9 t = owns (c : Thread nD τ) (ms1_9 t) fullShare (iblk1 V c 9 t)
    ∧ (dat1 V c).leavesExact 10 t = owns (c : Thread nD τ) (ms1_10 t) fullShare (iblk1 V c 10 t)
    ∧ (dat1 V c).leavesExact 11 t = owns (c : Thread nD τ) (ms1_11 t) fullShare (iblk1 V c 11 t) := by
  refine ⟨?_, ?_, ?_, ?_, ?_, ?_, ?_, ?_, ?_, ?_, ?_, ?_⟩ <;>
  (unfold Dat.leavesExact; rw [liveAt1_in _ (by decide)]; dsimp only [dat1])

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5, b6, b7, b8, b9, b10, b11⟩ := before1_all V c t
  obtain ⟨l0, l1, l2, l3, l4, l5, l6, l7, l8, l9, l10, l11⟩ := leaves1_all V c t
  simp only [b0, b1, b2, b3, b4, b5, b6, b7, b8, b9, b10, b11]
  rw [l0, l1, l2, l3, l4, l5, l6, l7, l8, l9, l10, l11]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val = 0
  · have h1 : ¬t.val = 127 := by omega
    rw [Dat.leavesExact_idle (dat1 V c) 12 t (idleAt1_12 t (fun h => h1 ((hcond1_1 t).mp h))) (noFlush1_12 t (fun h => h1 ((hcond1_1 t).mp h)))]
    rw [acc1_first V c t h0]
    rw [PhiS1_castSucc V c t, PhiS1_zero V c _ _ h0, PhiA1_eq]
    iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_A c (grid1.coords t) (ops1 t) ((hcond1_0 t).mpr h0) (fun h => h1 ((hcond1_1 t).mp h)) (blk1 V c t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iintro ⟨H0, H1, H2, H3, H4, H5, H6, H7, H8, H9, H10, H11, H12, ⟨%es0, HS0⟩⟩
    isplitl [R0 R1 R2 R3 R4 R5 HS0 Hg]
    · isplitl [R0 R1 R2 R3 R4 R5 HS0]
      · isplitl [R0]; · iexact R0
        isplitl [R1]; · iexact R1
        isplitl [R2]; · iexact R2
        isplitl [R3]; · iexact R3
        isplitl [R4]; · iexact R4
        isplitl [R5]; · iexact R5
        unfold owns; iexists _; isplitr
        swap; · iexact HS0
        ipureintro; exact rd_sout1_A_0 c _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · by_cases h1 : t.val = 127
    ·
      rw [show (dat1 V c).leavesExact 12 t = owns (c : Thread nD τ) (ms1_12 t) fullShare ((dat1 V c).after 12 t) from by
        unfold Dat.leavesExact; rw [liveAt1_12 t ((hcond1_1 t).mpr h1)], after1_12]
      rw [acc1_next V c t h0]
      rw [PhiS1_castSucc V c t, PhiS1_pos V c _ _ h0]
      iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_C c (grid1.coords t) (ops1 t) (fun h => h0 ((hcond1_0 t).mp h)) ((hcond1_1 t).mpr h1) (blk1 V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, ⟨%es0, HS0⟩⟩
      isplitl [R0 R1 R2 R3 R4 R5 HS0 Hg]
      · isplitl [R0 R1 R2 R3 R4 R5 HS0]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS0
          ipureintro; exact rd_sout1_C_0 c _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact rd_out1_C_12 c _ _ _ _ _ _ _ _
    ·
      rw [Dat.leavesExact_idle (dat1 V c) 12 t (idleAt1_12 t (fun h => h1 ((hcond1_1 t).mp h))) (noFlush1_12 t (fun h => h1 ((hcond1_1 t).mp h)))]
      rw [acc1_next V c t h0]
      rw [PhiS1_castSucc V c t, PhiS1_pos V c _ _ h0]
      iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) (ops1 t) (fun h => h0 ((hcond1_0 t).mp h)) (fun h => h1 ((hcond1_1 t).mp h)) (blk1 V c t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [R0 R1 R2 R3 R4 R5 HS0 Hg]
      · isplitl [R0 R1 R2 R3 R4 R5 HS0]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS0
          ipureintro; exact rd_sout1_B_0 c _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨R0, R1, R2, R3, R4, R5, HS0⟩, Hg⟩
  isplitl [R0 R1 R2 R3 R4 R5 HS0]
  · isplitl [R0]; · iexact R0
    isplitl [R1]; · iexact R1
    isplitl [R2]; · iexact R2
    isplitl [R3]; · iexact R3
    isplitl [R4]; · iexact R4
    isplitl [R5]; · iexact R5
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.KernelIdeal.Hand

end
-- ==== Proof.KiRunMain.lean ====
import proofs.«148436_j816043786555_1_alg».proof.Proof.Gen.KernelIdeal.Launch
import proofs.«148436_j816043786555_1_alg».proof.Proof.Gen.KernelIdeal.Skeleton
import proofs.«148436_j816043786555_1_alg».proof.Proof.Gen.KernelIdeal.Points
import proofs.«148436_j816043786555_1_alg».proof.Proof.Gen.KernelIdeal.Regions
import proofs.«148436_j816043786555_1_alg».proof.Proof.KiFrame0
import proofs.«148436_j816043786555_1_alg».proof.Proof.KiFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev W0 : Dev nD → Valuation τ sig (Elt F) := fun c b => (s₀ m ρ).mem ((c : Dev nD), b)

noncomputable abbrev V0 : (c : Dev nD) → (b : Ref sig .tc) → Buf (Elt F) ((c : Thread nD τ).loc b) := fun c b => W0 m ρ c b

noncomputable def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

noncomputable abbrev V1 : (c : Dev nD) → (b : Ref sig .tc) → Buf (Elt F) ((c : Thread nD τ).loc b) := fun c b => W1 m ρ c b

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

noncomputable abbrev W2 : Dev nD → Valuation τ sig (Elt F) := fun c => StableHlo.after hostOps1 (W1 m ρ c)

noncomputable abbrev V2 : (c : Dev nD) → (b : Ref sig .tc) → Buf (Elt F) ((c : Thread nD τ).loc b) := fun c b => W2 m ρ c b

noncomputable def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

noncomputable abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

noncomputable abbrev W4 : Dev nD → Valuation τ sig (Elt F) := fun c => StableHlo.after hostOps2 (W3 m ρ c)

noncomputable abbrev adm : (p : Fin 2) → (pcfgs (F := F) p).Adm := fun p => (cfgs p).toPCfg_adm

noncomputable def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

noncomputable abbrev Tₙ (c : Dev nD) : sProp 𝕄 := iprop(StableHlo.held (c : Thread nD τ) (Pipeline.ucRefs τ sig) (W4 m ρ c) ∗ ∃ r, prngReg c r)

set_option backward.isDefEq.respectTransparency.types false in
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (V0 m ρ) c).Φ 0
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    show (dat0 (V0 m ρ) c).Φ (Fin.last cfg0.N) ⊢ _
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (V2 m ρ) c).Φ 0
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    show (dat1 (V2 m ρ) c).Φ (Fin.last cfg1.N) ⊢ _
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

noncomputable abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

theorem W1_keep (c : Dev nD) (b : Ref sig .tc) (hb : ∀ w : Fin cfg0.W, Pipeline.arrRef spec0 w = b → (cfg0.win w).isOut = false) :
    W1 m ρ c (Proc.devRef .tc b) = m ((c : Thread nD τ).loc b) := by
  by_cases h : ∃ w, Pipeline.arrRef spec0 w = b
  · obtain ⟨w, rfl⟩ := h
    exact (W1_arr m ρ c w).trans (((dat0 (V0 m ρ) c).arrAt_in w (hb w rfl) _).trans (A_eq0 (V0 m ρ) c w))
  · exact W1_of_ne m ρ c b fun w e => h ⟨w, e⟩

theorem W2_arg (c : Dev nD) (b : Ref sig .tc) (h1 : b ∉ hostOps1_W) (h0 : ∀ w : Fin cfg0.W, Pipeline.arrRef spec0 w = b → (cfg0.win w).isOut = false) :
    W2 m ρ c (Proc.devRef .tc b) = m ((c : Thread nD τ).loc b) :=
  (StableHlo.after_of_writes_sub hostOps1 _ hostOps1_writes h1).trans (W1_keep m ρ c b h0)

theorem W3_keep (c : Dev nD) (b : Ref sig .tc) (hb : ∀ w : Fin cfg1.W, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩

/-- A buffer that neither host stretch writes and that no region has as an output holds at the end what it held at launch. -/
theorem W4_arg (c : Dev nD) (b : Ref sig .tc) (h2 : b ∉ hostOps2_W) (h3 : ∀ w : Fin cfg1.W, Pipeline.arrRef spec1 w = b → (cfg1.win w).isOut = false)
    (h1 : b ∉ hostOps1_W) (h0 : ∀ w : Fin cfg0.W, Pipeline.arrRef spec0 w = b → (cfg0.win w).isOut = false) :
    W4 m ρ c (Proc.devRef .tc b) = m ((c : Thread nD τ).loc b) :=
  (StableHlo.after_of_writes_sub hostOps2 _ hostOps2_writes h2).trans <| (W3_keep m ρ c b h3).trans (W2_arg m ρ c b h1 h0)

noncomputable def ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)

theorem args_kept {s : MemSt nD τ sig (Elt F)}
    (h : ∀ c : Dev nD, ∀ b ∈ Pipeline.ucRefs τ sig, s.mem (((c : Thread nD τ)).1, b) = W4 m ρ c b) (c : Dev nD) : ArgsKept m s c :=
  have k := fun (b : Ref sig .tc) hu h2 h3 h1 h0 => (h c _ (mem_uc b hu)).trans (W4_arg m ρ c b h2 h3 h1 h0)
  ⟨k main_arg0 (by decide) (by decide) (by decide) (by decide) (by decide),
   k main_arg1 (by decide) (by decide) (by decide) (by decide) (by decide),
   k main_arg2 (by decide) (by decide) (by decide) (by decide) (by decide),
   k main_arg3 (by decide) (by decide) (by decide) (by decide) (by decide),
   k main_arg4 (by decide) (by decide) (by decide) (by decide) (by decide),
   k main_arg5 (by decide) (by decide) (by decide) (by decide) (by decide),
   k main_arg6 (by decide) (by decide) (by decide) (by decide) (by decide),
   k main_arg7 (by decide) (by decide) (by decide) (by decide) (by decide),
   k main_arg8 (by decide) (by decide) (by decide) (by decide) (by decide),
   k main_arg9 (by decide) (by decide) (by decide) (by decide) (by decide)⟩

theorem frame : θ_run defs (onTc (τ := τ) (main (F := F))) ⟨m, fun _ => 0, ρ⟩ (fun r => ∀ c : Dev nD, ArgsKept m r.2 c) :=
  run_post m ρ fun _ h c => args_kept m ρ h c

end Cert.KernelIdeal.Hand

end
-- ==== Proof.KiBlocks.lean ====
import proofs.«148436_j816043786555_1_alg».proof.Proof.Gen.KernelIdeal.Launch
import proofs.«148436_j816043786555_1_alg».proof.Proof.Gen.KernelIdeal.Skeleton
import proofs.«148436_j816043786555_1_alg».proof.Proof.Gen.KernelIdeal.Points
import proofs.«148436_j816043786555_1_alg».proof.Proof.Gen.KernelIdeal.Regions
import proofs.«148436_j816043786555_1_alg».proof.Proof.KiFrame0
import proofs.«148436_j816043786555_1_alg».proof.Proof.KiFrame1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

theorem pt_lt0 (t : Fin cfg0.N) : t.val < 128 := lt_of_lt_of_eq t.isLt N_0
theorem pt_lt1 (t : Fin cfg1.N) : t.val < 128 := lt_of_lt_of_eq t.isLt N_1

theorem row_lt0 (t : Fin cfg0.N) (r : Fin 1024) : 1024 * t.val + r.val < 131072 := by
  have := pt_lt0 t; have := r.isLt; omega
theorem row_lt1 (t : Fin cfg1.N) (r : Fin 1024) : 1024 * t.val + r.val < 131072 := by
  have := pt_lt1 t; have := r.isLt; omega

section Blocks

variable (V : (c : Dev nD) → (b : Ref sig .tc) → Buf (Elt F) ((c : Thread nD τ).loc b))

noncomputable abbrev scr0_0 (c : Dev nD) (n : ℕ) (h : n < cfg0.N) : Vec F S1x128 .f32 := (scr0 V c n h).1
noncomputable abbrev scr0_1 (c : Dev nD) (n : ℕ) (h : n < cfg0.N) : Vec F S1x128 .f32 := (scr0 V c n h).2

theorem scr0_0_zero (c : Dev nD) (h : 0 < cfg0.N) : scr0_0 V c 0 h = k0_pay3 (iblk0 V c 0 ⟨0, h⟩) k0_pay1 := rfl
theorem scr0_1_zero (c : Dev nD) (h : 0 < cfg0.N) : scr0_1 V c 0 h = k0_pay4 (iblk0 V c 0 ⟨0, h⟩) k0_pay2 := rfl
theorem scr0_0_succ (c : Dev nD) (n : ℕ) (h : n + 1 < cfg0.N) :
    scr0_0 V c (n + 1) h = k0_pay3 (iblk0 V c 0 ⟨n + 1, h⟩) (scr0_0 V c n (Nat.lt_of_succ_lt h)) := rfl
theorem scr0_1_succ (c : Dev nD) (n : ℕ) (h : n + 1 < cfg0.N) :
    scr0_1 V c (n + 1) h = k0_pay4 (iblk0 V c 0 ⟨n + 1, h⟩) (scr0_1 V c n (Nat.lt_of_succ_lt h)) := rfl
theorem after0_1_eq (c : Dev nD) (t : Fin cfg0.N) : (dat0 V c).after 1 t = scr0_0 V c t.val t.isLt := rfl
theorem after0_2_eq (c : Dev nD) (t : Fin cfg0.N) : (dat0 V c).after 2 t = scr0_1 V c t.val t.isLt := rfl

theorem acc1_zero (c : Dev nD) (hn : 0 < cfg1.N) :
    acc1 V c 0 hn = step1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (k1_pay2 (F := F)) := rfl
theorem acc1_succ (c : Dev nD) (n : ℕ) (hn : n + 1 < cfg1.N) :
    acc1 V c (n + 1) hn = step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (acc1 V c n (Nat.lt_of_succ_lt hn)) := rfl
theorem after1_12_last (c : Dev nD) (t : Fin cfg1.N) (h1 : t.val = 127) : (dat1 V c).after 12 t = acc1 V c t.val t.isLt := rfl

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

set_option maxHeartbeats 400000 in
theorem iblk0_0_apply (c : Dev nD) (t : Fin cfg0.N) (r : Fin 1024) (d : Fin 128) :
    (iblk0 V c 0 t : S1024x128.Idx → Elt F .f32) (ix2 r d)
      = (V c main_arg1 : S131072x128.Idx → Elt F .f32) (ix2 ⟨1024 * t.val + r.val, row_lt0 t r⟩ d) := by
  obtain ⟨e0, e1⟩ := idx0_0 t
  unfold iblk0
  rw [View.read_apply]
  show V c main_arg1 _ = V c main_arg1 _
  congr 1
  funext a
  apply Fin.ext
  match a with
  | ⟨0, _⟩ => show win0_0.index t (0 : Fin 2) * 1024 + 1 * r.val = 1024 * t.val + r.val; omega
  | ⟨1, _⟩ => show win0_0.index t (1 : Fin 2) * 128 + 1 * d.val = d.val; omega

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

set_option maxHeartbeats 400000 in
theorem iblk1_0_apply (c : Dev nD) (t : Fin cfg1.N) (r : Fin 1024) (d : Fin 128) :
    (iblk1 V c 0 t : S1024x128.Idx → Elt F .f32) (ix2 r d)
      = (V c main_arg0 : S131072x128.Idx → Elt F .f32) (ix2 ⟨1024 * t.val + r.val, row_lt1 t r⟩ d) := by
  obtain ⟨e0, e1⟩ := idx1_0 t
  unfold iblk1
  rw [View.read_apply]
  show V c main_arg0 _ = V c main_arg0 _
  congr 1
  funext a
  apply Fin.ext
  match a with
  | ⟨0, _⟩ => show win1_0.index t (0 : Fin 2) * 1024 + 1 * r.val = 1024 * t.val + r.val; omega
  | ⟨1, _⟩ => show win1_0.index t (1 : Fin 2) * 128 + 1 * d.val = d.val; omega

set_option maxHeartbeats 400000 in
theorem iblk1_1_apply (c : Dev nD) (t : Fin cfg1.N) (r : Fin 1024) (d : Fin 128) :
    (iblk1 V c 1 t : S1024x128.Idx → Elt F .f32) (ix2 r d)
      = (V c main_arg1 : S131072x128.Idx → Elt F .f32) (ix2 ⟨1024 * t.val + r.val, row_lt1 t r⟩ d) := by
  obtain ⟨e0, e1⟩ := idx1_1 t
  unfold iblk1
  rw [View.read_apply]
  show V c main_arg1 _ = V c main_arg1 _
  congr 1
  funext a
  apply Fin.ext
  match a with
  | ⟨0, _⟩ => show win1_1.index t (0 : Fin 2) * 1024 + 1 * r.val = 1024 * t.val + r.val; omega
  | ⟨1, _⟩ => show win1_1.index t (1 : Fin 2) * 128 + 1 * d.val = d.val; omega

theorem off1_2 (t : Fin cfg1.N) : (fun a => win1_2.index t a * main_arg2.ty.shape.size a) = fun _ => 0 :=
  funext fun a => (by decide +kernel : ∀ (t : Fin grid1.N) (a : Fin 2), win1_2.index t a * main_arg2.ty.shape.size a = 0) t a

set_option maxHeartbeats 400000 in
theorem iblk1_2_eq (c : Dev nD) (t : Fin cfg1.N) :
    (iblk1 V c 2 t : S128x512.Idx → Elt F .f32) = (V c main_arg2 : S128x512.Idx → Elt F .f32) := by
  have hz := off1_2 t
  unfold iblk1
  exact Memref.read_access_unit_zero (Elt F) main_arg2 hz (fun a => by rw [congrFun hz a]; simp) (V c main_arg2)

theorem off1_3 (t : Fin cfg1.N) : (fun a => win1_3.index t a * main_v5.ty.shape.size a) = fun _ => 0 :=
  funext fun a => (by decide +kernel : ∀ (t : Fin grid1.N) (a : Fin 2), win1_3.index t a * main_v5.ty.shape.size a = 0) t a

set_option maxHeartbeats 400000 in
theorem iblk1_3_eq (c : Dev nD) (t : Fin cfg1.N) :
    (iblk1 V c 3 t : S1x512.Idx → Elt F .f32) = (V c main_v5 : S1x512.Idx → Elt F .f32) := by
  have hz := off1_3 t
  unfold iblk1
  exact Memref.read_access_unit_zero (Elt F) main_v5 hz (fun a => by rw [congrFun hz a]; simp) (V c main_v5)

theorem off1_4 (t : Fin cfg1.N) : (fun a => win1_4.index t a * main_arg4.ty.shape.size a) = fun _ => 0 :=
  funext fun a => (by decide +kernel : ∀ (t : Fin grid1.N) (a : Fin 2), win1_4.index t a * main_arg4.ty.shape.size a = 0) t a

set_option maxHeartbeats 400000 in
theorem iblk1_4_eq (c : Dev nD) (t : Fin cfg1.N) :
    (iblk1 V c 4 t : S512x128.Idx → Elt F .f32) = (V c main_arg4 : S512x128.Idx → Elt F .f32) := by
  have hz := off1_4 t
  unfold iblk1
  exact Memref.read_access_unit_zero (Elt F) main_arg4 hz (fun a => by rw [congrFun hz a]; simp) (V c main_arg4)

theorem off1_5 (t : Fin cfg1.N) : (fun a => win1_5.index t a * main_v6.ty.shape.size a) = fun _ => 0 :=
  funext fun a => (by decide +kernel : ∀ (t : Fin grid1.N) (a : Fin 2), win1_5.index t a * main_v6.ty.shape.size a = 0) t a

set_option maxHeartbeats 400000 in
theorem iblk1_5_eq (c : Dev nD) (t : Fin cfg1.N) :
    (iblk1 V c 5 t : S1x128.Idx → Elt F .f32) = (V c main_v6 : S1x128.Idx → Elt F .f32) := by
  have hz := off1_5 t
  unfold iblk1
  exact Memref.read_access_unit_zero (Elt F) main_v6 hz (fun a => by rw [congrFun hz a]; simp) (V c main_v6)

theorem off1_6 (t : Fin cfg1.N) : (fun a => win1_6.index t a * main_arg6.ty.shape.size a) = fun _ => 0 :=
  funext fun a => (by decide +kernel : ∀ (t : Fin grid1.N) (a : Fin 2), win1_6.index t a * main_arg6.ty.shape.size a = 0) t a

set_option maxHeartbeats 400000 in
theorem iblk1_6_eq (c : Dev nD) (t : Fin cfg1.N) :
    (iblk1 V c 6 t : S128x512.Idx → Elt F .f32) = (V c main_arg6 : S128x512.Idx → Elt F .f32) := by
  have hz := off1_6 t
  unfold iblk1
  exact Memref.read_access_unit_zero (Elt F) main_arg6 hz (fun a => by rw [congrFun hz a]; simp) (V c main_arg6)

theorem off1_7 (t : Fin cfg1.N) : (fun a => win1_7.index t a * main_v7.ty.shape.size a) = fun _ => 0 :=
  funext fun a => (by decide +kernel : ∀ (t : Fin grid1.N) (a : Fin 2), win1_7.index t a * main_v7.ty.shape.size a = 0) t a

set_option maxHeartbeats 400000 in
theorem iblk1_7_eq (c : Dev nD) (t : Fin cfg1.N) :
    (iblk1 V c 7 t : S1x512.Idx → Elt F .f32) = (V c main_v7 : S1x512.Idx → Elt F .f32) := by
  have hz := off1_7 t
  unfold iblk1
  exact Memref.read_access_unit_zero (Elt F) main_v7 hz (fun a => by rw [congrFun hz a]; simp) (V c main_v7)

theorem off1_8 (t : Fin cfg1.N) : (fun a => win1_8.index t a * main_arg8.ty.shape.size a) = fun _ => 0 :=
  funext fun a => (by decide +kernel : ∀ (t : Fin grid1.N) (a : Fin 2), win1_8.index t a * main_arg8.ty.shape.size a = 0) t a

set_option maxHeartbeats 400000 in
theorem iblk1_8_eq (c : Dev nD) (t : Fin cfg1.N) :
    (iblk1 V c 8 t : S512x128.Idx → Elt F .f32) = (V c main_arg8 : S512x128.Idx → Elt F .f32) := by
  have hz := off1_8 t
  unfold iblk1
  exact Memref.read_access_unit_zero (Elt F) main_arg8 hz (fun a => by rw [congrFun hz a]; simp) (V c main_arg8)

theorem off1_9 (t : Fin cfg1.N) : (fun a => win1_9.index t a * main_v8.ty.shape.size a) = fun _ => 0 :=
  funext fun a => (by decide +kernel : ∀ (t : Fin grid1.N) (a : Fin 2), win1_9.index t a * main_v8.ty.shape.size a = 0) t a

set_option maxHeartbeats 400000 in
theorem iblk1_9_eq (c : Dev nD) (t : Fin cfg1.N) :
    (iblk1 V c 9 t : S1x128.Idx → Elt F .f32) = (V c main_v8 : S1x128.Idx → Elt F .f32) := by
  have hz := off1_9 t
  unfold iblk1
  exact Memref.read_access_unit_zero (Elt F) main_v8 hz (fun a => by rw [congrFun hz a]; simp) (V c main_v8)

theorem off1_10 (t : Fin cfg1.N) : (fun a => win1_10.index t a * main_v2.ty.shape.size a) = fun _ => 0 :=
  funext fun a => (by decide +kernel : ∀ (t : Fin grid1.N) (a : Fin 2), win1_10.index t a * main_v2.ty.shape.size a = 0) t a

set_option maxHeartbeats 400000 in
theorem iblk1_10_eq (c : Dev nD) (t : Fin cfg1.N) :
    (iblk1 V c 10 t : S1x128.Idx → Elt F .f32) = (V c main_v2 : S1x128.Idx → Elt F .f32) := by
  have hz := off1_10 t
  unfold iblk1
  exact Memref.read_access_unit_zero (Elt F) main_v2 hz (fun a => by rw [congrFun hz a]; simp) (V c main_v2)

theorem off1_11 (t : Fin cfg1.N) : (fun a => win1_11.index t a * main_v4.ty.shape.size a) = fun _ => 0 :=
  funext fun a => (by decide +kernel : ∀ (t : Fin grid1.N) (a : Fin 2), win1_11.index t a * main_v4.ty.shape.size a = 0) t a

set_option maxHeartbeats 400000 in
theorem iblk1_11_eq (c : Dev nD) (t : Fin cfg1.N) :
    (iblk1 V c 11 t : S1x128.Idx → Elt F .f32) = (V c main_v4 : S1x128.Idx → Elt F .f32) := by
  have hz := off1_11 t
  unfold iblk1
  exact Memref.read_access_unit_zero (Elt F) main_v4 hz (fun a => by rw [congrFun hz a]; simp) (V c main_v4)

end Blocks

section Last

theorem last_lt0 : 127 < cfg0.N := by rw [show cfg0.N = 128 from N_0]; decide
theorem last_lt1 : 127 < cfg1.N := by rw [show cfg1.N = 128 from N_1]; decide

theorem off0_1 (t : Fin cfg0.N) : (fun a => win0_1.index t a * main_v0_0.ty.shape.size a) = fun _ => 0 :=
  funext fun a => (by decide +kernel : ∀ (t : Fin grid0.N) (a : Fin 2), win0_1.index t a * main_v0_0.ty.shape.size a = 0) t a
theorem off0_2 (t : Fin cfg0.N) : (fun a => win0_2.index t a * main_v0_1.ty.shape.size a) = fun _ => 0 :=
  funext fun a => (by decide +kernel : ∀ (t : Fin grid0.N) (a : Fin 2), win0_2.index t a * main_v0_1.ty.shape.size a = 0) t a
theorem off1_12 (t : Fin cfg1.N) : (fun a => win1_12.index t a * main_v9.ty.shape.size a) = fun _ => 0 :=
  funext fun a => (by decide +kernel : ∀ (t : Fin grid1.N) (a : Fin 2), win1_12.index t a * main_v9.ty.shape.size a = 0) t a

set_option maxHeartbeats 400000 in
theorem arrAt_last0_1 {c : Dev nD} (dat : Dat τ (Elt F) Unit ℕ (UR sig nD τ) ℕ cfg0 c) :
    (dat.arrAt 1 cfg0.N : S1x128.Idx → Elt F .f32) = dat.after 1 ⟨127, last_lt0⟩ := by
  have hf : (cfg0.win 1).flush ⟨127, last_lt0⟩ = true := (flush0_1 _).mpr rfl
  have hz := off0_1 ⟨127, last_lt0⟩
  refine (congrArg (dat.arrAt 1) (N_0 : cfg0.N = 127 + 1)).trans ?_
  refine (dat.arrAt_succ 1 ⟨127, last_lt0⟩).trans ?_
  rw [if_pos hf]
  exact Memref.write_access_unit_zero_univ (Elt F) main_v0_0 hz (fun a => by rw [congrFun hz a]; simp) _ _

set_option maxHeartbeats 400000 in
theorem arrAt_last0_2 {c : Dev nD} (dat : Dat τ (Elt F) Unit ℕ (UR sig nD τ) ℕ cfg0 c) :
    (dat.arrAt 2 cfg0.N : S1x128.Idx → Elt F .f32) = dat.after 2 ⟨127, last_lt0⟩ := by
  have hf : (cfg0.win 2).flush ⟨127, last_lt0⟩ = true := (flush0_2 _).mpr rfl
  have hz := off0_2 ⟨127, last_lt0⟩
  refine (congrArg (dat.arrAt 2) (N_0 : cfg0.N = 127 + 1)).trans ?_
  refine (dat.arrAt_succ 2 ⟨127, last_lt0⟩).trans ?_
  rw [if_pos hf]
  exact Memref.write_access_unit_zero_univ (Elt F) main_v0_1 hz (fun a => by rw [congrFun hz a]; simp) _ _

set_option maxHeartbeats 400000 in
theorem arrAt_last1_12 {c : Dev nD} (dat : Dat τ (Elt F) Unit ℕ (UR sig nD τ) ℕ cfg1 c) :
    (dat.arrAt 12 cfg1.N : S1x1.Idx → Elt F .f32) = dat.after 12 ⟨127, last_lt1⟩ := by
  have hf : (cfg1.win 12).flush ⟨127, last_lt1⟩ = true := (flush1_12 _).mpr rfl
  have hz := off1_12 ⟨127, last_lt1⟩
  refine (congrArg (dat.arrAt 12) (N_1 : cfg1.N = 127 + 1)).trans ?_
  refine (dat.arrAt_succ 12 ⟨127, last_lt1⟩).trans ?_
  rw [if_pos hf]
  exact Memref.write_access_unit_zero_univ (Elt F) main_v9 hz (fun a => by rw [congrFun hz a]; simp) _ _

theorem arrAt_in0_0 {c : Dev nD} (dat : Dat τ (Elt F) Unit ℕ (UR sig nD τ) ℕ cfg0 c) (n : Nat) : dat.arrAt 0 n = dat.A 0 :=
  dat.arrAt_in 0 rfl n
theorem arrAt_in1_0 {c : Dev nD} (dat : Dat τ (Elt F) Unit ℕ (UR sig nD τ) ℕ cfg1 c) (n : Nat) : dat.arrAt 0 n = dat.A 0 :=
  dat.arrAt_in 0 rfl n
theorem arrAt_in1_1 {c : Dev nD} (dat : Dat τ (Elt F) Unit ℕ (UR sig nD τ) ℕ cfg1 c) (n : Nat) : dat.arrAt 1 n = dat.A 1 :=
  dat.arrAt_in 1 rfl n
theorem arrAt_in1_2 {c : Dev nD} (dat : Dat τ (Elt F) Unit ℕ (UR sig nD τ) ℕ cfg1 c) (n : Nat) : dat.arrAt 2 n = dat.A 2 :=
  dat.arrAt_in 2 rfl n
theorem arrAt_in1_3 {c : Dev nD} (dat : Dat τ (Elt F) Unit ℕ (UR sig nD τ) ℕ cfg1 c) (n : Nat) : dat.arrAt 3 n = dat.A 3 :=
  dat.arrAt_in 3 rfl n
theorem arrAt_in1_4 {c : Dev nD} (dat : Dat τ (Elt F) Unit ℕ (UR sig nD τ) ℕ cfg1 c) (n : Nat) : dat.arrAt 4 n = dat.A 4 :=
  dat.arrAt_in 4 rfl n
theorem arrAt_in1_5 {c : Dev nD} (dat : Dat τ (Elt F) Unit ℕ (UR sig nD τ) ℕ cfg1 c) (n : Nat) : dat.arrAt 5 n = dat.A 5 :=
  dat.arrAt_in 5 rfl n
theorem arrAt_in1_6 {c : Dev nD} (dat : Dat τ (Elt F) Unit ℕ (UR sig nD τ) ℕ cfg1 c) (n : Nat) : dat.arrAt 6 n = dat.A 6 :=
  dat.arrAt_in 6 rfl n
theorem arrAt_in1_7 {c : Dev nD} (dat : Dat τ (Elt F) Unit ℕ (UR sig nD τ) ℕ cfg1 c) (n : Nat) : dat.arrAt 7 n = dat.A 7 :=
  dat.arrAt_in 7 rfl n
theorem arrAt_in1_8 {c : Dev nD} (dat : Dat τ (Elt F) Unit ℕ (UR sig nD τ) ℕ cfg1 c) (n : Nat) : dat.arrAt 8 n = dat.A 8 :=
  dat.arrAt_in 8 rfl n
theorem arrAt_in1_9 {c : Dev nD} (dat : Dat τ (Elt F) Unit ℕ (UR sig nD τ) ℕ cfg1 c) (n : Nat) : dat.arrAt 9 n = dat.A 9 :=
  dat.arrAt_in 9 rfl n
theorem arrAt_in1_10 {c : Dev nD} (dat : Dat τ (Elt F) Unit ℕ (UR sig nD τ) ℕ cfg1 c) (n : Nat) : dat.arrAt 10 n = dat.A 10 :=
  dat.arrAt_in 10 rfl n
theorem arrAt_in1_11 {c : Dev nD} (dat : Dat τ (Elt F) Unit ℕ (UR sig nD τ) ℕ cfg1 c) (n : Nat) : dat.arrAt 11 n = dat.A 11 :=
  dat.arrAt_in 11 rfl n

end Last

section Host

variable (U : Valuation τ sig (Elt F))

set_option maxHeartbeats 400000 in
theorem host1_v2 : StableHlo.after hostOps1 U (Proc.devRef .tc main_v2)
    = Host.divf (U (Proc.devRef .tc main_v0_0)) (broadcastInDim S1x128 ![] bcast_S_S1x128 (constant (F := F) S_ .f32 0x48000000#32)) := by
  show StableHlo.after hostOps1 U (Proc.devRef .tc main_v2) = _
  after_results

set_option maxHeartbeats 400000 in
theorem host1_v4 : StableHlo.after hostOps1 U (Proc.devRef .tc main_v4)
    = Host.divf (U (Proc.devRef .tc main_v0_1)) (broadcastInDim S1x128 ![] bcast_S_S1x128 (constant (F := F) S_ .f32 0x48000000#32)) := by
  show StableHlo.after hostOps1 U (Proc.devRef .tc main_v4) = _
  after_results

set_option maxHeartbeats 400000 in
theorem host1_v5 : StableHlo.after hostOps1 U (Proc.devRef .tc main_v5)
    = shapeCast S1x512 (U (Proc.devRef .tc main_arg3)) shapeCasts_S512_S1x512 := by
  show StableHlo.after hostOps1 U (Proc.devRef .tc main_v5) = _
  after_results
  rfl

set_option maxHeartbeats 400000 in
theorem host1_v6 : StableHlo.after hostOps1 U (Proc.devRef .tc main_v6)
    = shapeCast S1x128 (U (Proc.devRef .tc main_arg5)) shapeCasts_S128_S1x128 := by
  show StableHlo.after hostOps1 U (Proc.devRef .tc main_v6) = _
  after_results
  rfl

set_option maxHeartbeats 400000 in
theorem host1_v7 : StableHlo.after hostOps1 U (Proc.devRef .tc main_v7)
    = shapeCast S1x512 (U (Proc.devRef .tc main_arg7)) shapeCasts_S512_S1x512 := by
  show StableHlo.after hostOps1 U (Proc.devRef .tc main_v7) = _
  after_results
  rfl

set_option maxHeartbeats 400000 in
theorem host1_v8 : StableHlo.after hostOps1 U (Proc.devRef .tc main_v8)
    = shapeCast S1x128 (U (Proc.devRef .tc main_arg9)) shapeCasts_S128_S1x128 := by
  show StableHlo.after hostOps1 U (Proc.devRef .tc main_v8) = _
  after_results
  rfl

theorem host1_kept (r : Ref sig .tc) (h : r ∉ hostOps1_W) :
    StableHlo.after hostOps1 U (Proc.devRef .tc r) = U (Proc.devRef .tc r) :=
  StableHlo.after_of_writes_sub hostOps1 U hostOps1_writes h
theorem host1_main_arg0 : StableHlo.after hostOps1 U (Proc.devRef .tc main_arg0) = U (Proc.devRef .tc main_arg0) := host1_kept U main_arg0 (by decide)
theorem host1_main_arg1 : StableHlo.after hostOps1 U (Proc.devRef .tc main_arg1) = U (Proc.devRef .tc main_arg1) := host1_kept U main_arg1 (by decide)
theorem host1_main_arg2 : StableHlo.after hostOps1 U (Proc.devRef .tc main_arg2) = U (Proc.devRef .tc main_arg2) := host1_kept U main_arg2 (by decide)
theorem host1_main_arg3 : StableHlo.after hostOps1 U (Proc.devRef .tc main_arg3) = U (Proc.devRef .tc main_arg3) := host1_kept U main_arg3 (by decide)
theorem host1_main_arg4 : StableHlo.after hostOps1 U (Proc.devRef .tc main_arg4) = U (Proc.devRef .tc main_arg4) := host1_kept U main_arg4 (by decide)
theorem host1_main_arg5 : StableHlo.after hostOps1 U (Proc.devRef .tc main_arg5) = U (Proc.devRef .tc main_arg5) := host1_kept U main_arg5 (by decide)
theorem host1_main_arg6 : StableHlo.after hostOps1 U (Proc.devRef .tc main_arg6) = U (Proc.devRef .tc main_arg6) := host1_kept U main_arg6 (by decide)
theorem host1_main_arg7 : StableHlo.after hostOps1 U (Proc.devRef .tc main_arg7) = U (Proc.devRef .tc main_arg7) := host1_kept U main_arg7 (by decide)
theorem host1_main_arg8 : StableHlo.after hostOps1 U (Proc.devRef .tc main_arg8) = U (Proc.devRef .tc main_arg8) := host1_kept U main_arg8 (by decide)
theorem host1_main_arg9 : StableHlo.after hostOps1 U (Proc.devRef .tc main_arg9) = U (Proc.devRef .tc main_arg9) := host1_kept U main_arg9 (by decide)
theorem host1_main_v0_0 : StableHlo.after hostOps1 U (Proc.devRef .tc main_v0_0) = U (Proc.devRef .tc main_v0_0) := host1_kept U main_v0_0 (by decide)
theorem host1_main_v0_1 : StableHlo.after hostOps1 U (Proc.devRef .tc main_v0_1) = U (Proc.devRef .tc main_v0_1) := host1_kept U main_v0_1 (by decide)

set_option maxHeartbeats 400000 in
theorem host2_v11 : StableHlo.after hostOps2 U (Proc.devRef .tc main_v11)
    = Host.divf (shapeCast S_ (U (Proc.devRef .tc main_v9)) shapeCasts_S1x1_S_) (constant (F := F) S_ .f32 0x48000000#32) := by
  show StableHlo.after hostOps2 U (Proc.devRef .tc main_v11) = _
  after_results
  rfl

theorem host2_kept (r : Ref sig .tc) (h : r ∉ hostOps2_W) :
    StableHlo.after hostOps2 U (Proc.devRef .tc r) = U (Proc.devRef .tc r) :=
  StableHlo.after_of_writes_sub hostOps2 U hostOps2_writes h

end Host

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

noncomputable abbrev SNxD : Shape := ⟨2, ![131072, 128]⟩
noncomputable abbrev SDxH : Shape := ⟨2, ![128, 512]⟩
noncomputable abbrev SHxD : Shape := ⟨2, ![512, 128]⟩
noncomputable abbrev SH : Shape := ⟨1, ![512]⟩
noncomputable abbrev SD : Shape := ⟨1, ![128]⟩

noncomputable abbrev c0 : EReal := Ideal.ofBits .f32 0x00000000#32
noncomputable abbrev cSlope : EReal := Ideal.ofBits .f32 0x3E4CCCCD#32
noncomputable abbrev cHalf : EReal := Ideal.ofBits .f32 0x3F000000#32
noncomputable abbrev cTwo : EReal := Ideal.ofBits .f32 0x40000000#32
noncomputable abbrev cRows : EReal := Ideal.ofBits .f32 0x48000000#32

noncomputable def leaky (h : EReal) : EReal := Scalar.select (Ideal.cmp .oge h c0) h (cSlope * h)

noncomputable def hidRow (xr : Fin 128 → EReal) (W1 : SDxH.Idx → EReal) (b1 : Fin 512 → EReal) (j : Fin 512) : EReal :=
  leaky ((∑ k : Fin 128, xr k * W1 (ix2 k j)) + b1 j)

noncomputable def netRow (xr : Fin 128 → EReal) (W1 : SDxH.Idx → EReal) (b1 : Fin 512 → EReal) (W2 : SHxD.Idx → EReal) (b2 : Fin 128 → EReal)
    (d : Fin 128) : EReal :=
  (∑ j : Fin 512, hidRow xr W1 b1 j * W2 (ix2 j d)) + b2 d

noncomputable def invVar (v : EReal) : EReal := Ideal.exp (-(Ideal.tanh v))

noncomputable def posTerm (mu yv iv : EReal) : EReal := (-((mu - yv) * (mu - yv))) * cHalf * iv
noncomputable def negTerm (mu ym y2m iv : EReal) : EReal := (-((y2m - (cTwo * mu) * ym) + mu * mu)) * cHalf * iv

noncomputable def rowValOf (xr yr : Fin 128 → EReal) (W1m : SDxH.Idx → EReal) (b1m : Fin 512 → EReal) (W2m : SHxD.Idx → EReal) (b2m : Fin 128 → EReal)
    (W1v : SDxH.Idx → EReal) (b1v : Fin 512 → EReal) (W2v : SHxD.Idx → EReal) (b2v : Fin 128 → EReal) (ym y2m : Fin 128 → EReal) : EReal :=
  (∑ d : Fin 128, posTerm (netRow xr W1m b1m W2m b2m d) (yr d) (invVar (netRow xr W1v b1v W2v b2v d)))
  - (∑ d : Fin 128, negTerm (netRow xr W1m b1m W2m b2m d) (ym d) (y2m d) (invVar (netRow xr W1v b1v W2v b2v d)))

noncomputable def colSum (y : SNxD.Idx → EReal) (d : Fin 128) : EReal := ∑ n : Fin 131072, y (ix2 n d)
noncomputable def colSumSq (y : SNxD.Idx → EReal) (d : Fin 128) : EReal := ∑ n : Fin 131072, y (ix2 n d) * y (ix2 n d)
noncomputable def colMean (y : SNxD.Idx → EReal) (d : Fin 128) : EReal := Ideal.div (colSum y d) cRows
noncomputable def colMeanSq (y : SNxD.Idx → EReal) (d : Fin 128) : EReal := Ideal.div (colSumSq y d) cRows

section
variable (x y : SNxD.Idx → EReal) (W1m : SDxH.Idx → EReal) (b1m : SH.Idx → EReal) (W2m : SHxD.Idx → EReal) (b2m : SD.Idx → EReal)
  (W1v : SDxH.Idx → EReal) (b1v : SH.Idx → EReal) (W2v : SHxD.Idx → EReal) (b2v : SD.Idx → EReal)

noncomputable def rowVal (ym y2m : Fin 128 → EReal) (n : Fin 131072) : EReal :=
  rowValOf (fun k => x (ix2 n k)) (fun d => y (ix2 n d)) W1m (fun j => b1m (ix1 j)) W2m (fun d => b2m (ix1 d))
    W1v (fun j => b1v (ix1 j)) W2v (fun d => b2v (ix1 d)) ym y2m

noncomputable def totalSum : EReal := ∑ n : Fin 131072, rowVal x y W1m b1m W2m b2m W1v b1v W2v b2v (colMean y) (colMeanSq y) n
noncomputable def total : EReal := Ideal.div (totalSum x y W1m b1m W2m b2m W1v b1v W2v b2v) cRows
end

end Cert.Spec

end
-- ==== Proof.PayIdx0.lean ====
import proofs.«148436_j816043786555_1_alg».proof.Proof.Gen.KernelIdeal.Skeleton
import proofs.«148436_j816043786555_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

theorem k0_pay1_apply (j : S1x128.Idx) : (k0_pay1 (F := Ideal)) j = 0 := by
  unfold k0_pay1
  rw [shapeCast_self]
  exact Ideal.ofBits_zero_f32

theorem k0_pay2_apply (j : S1x128.Idx) : (k0_pay2 (F := Ideal)) j = 0 := by
  unfold k0_pay2
  rw [shapeCast_self]
  exact Ideal.ofBits_zero_f32

theorem colReduce_apply (src : FVec Ideal S1024x128 .f32) (h : S1024x128.Reduces [0] S128) (hφ : FKind.Formats .f32)
    (hacc : (0x00000000#32 : BitVec 32) = FKind.add.neutral .f32 hφ) (hc : S128.ShapeCasts S1x128) (d : Fin 128) :
    shapeCast S1x128 (multiReduction (F := Ideal) .add [0] S128 src 0x00000000#32 h hφ hacc) hc (ix2 (0 : Fin 1) d)
      = ∑ r : Fin 1024, src (ix2 r d) := by
  refine (shapeCast_a_1a_apply _ hc (0 : Fin 1) d).trans ?_
  refine (Ideal.multiReduction_add_single src 0x00000000#32 h hφ hacc (ix1 d)).trans ?_
  refine Finset.sum_congr rfl fun r _ => congrArg src ?_
  funext a
  match a with
  | ⟨0, _⟩ => rfl
  | ⟨1, _⟩ => rfl

set_option maxHeartbeats 400000 in
theorem k0_pay3_apply (v3 : Vec Ideal S1024x128 .f32) (v4 : Vec Ideal S1x128 .f32) (d : Fin 128) :
    k0_pay3 v3 v4 (ix2 (0 : Fin 1) d) = v4 (ix2 (0 : Fin 1) d) + ∑ r : Fin 1024, v3 (ix2 r d) := by
  unfold k0_pay3
  rw [shapeCast_self]
  refine (addf_apply _ _ _).trans ?_
  exact congrArg (v4 (ix2 (0 : Fin 1) d) + ·) (colReduce_apply v3 _ _ _ _ d)

set_option maxHeartbeats 400000 in
theorem k0_pay4_apply (v3 : Vec Ideal S1024x128 .f32) (v11 : Vec Ideal S1x128 .f32) (d : Fin 128) :
    k0_pay4 v3 v11 (ix2 (0 : Fin 1) d) = v11 (ix2 (0 : Fin 1) d) + ∑ r : Fin 1024, v3 (ix2 r d) * v3 (ix2 r d) := by
  unfold k0_pay4
  rw [shapeCast_self]
  refine (addf_apply _ _ _).trans ?_
  exact congrArg (v11 (ix2 (0 : Fin 1) d) + ·) (colReduce_apply (mulf v3 v3) _ _ _ _ d)

end Cert.KernelIdeal.PayIdx

end
-- ==== Proof.Sums.lean ====
import Mathlib.Algebra.BigOperators.Fin
import Mathlib.Data.Fintype.BigOperators
import Mathlib.Logic.Equiv.Fin.Basic

open scoped BigOperators

namespace Cert.Sums

variable {M : Type*} [AddCommMonoid M]

noncomputable def rowOf (t : Fin 128) (r : Fin 1024) : Fin 131072 := ⟨1024 * t.val + r.val, by omega⟩

theorem sum_tiles (f : Fin 131072 → M) :
    ∑ n : Fin 131072, f n = ∑ t : Fin 128, ∑ r : Fin 1024, f (rowOf t r) := by
  rw [← Fintype.sum_prod_type' (f := fun t r => f (rowOf t r))]
  refine (Fintype.sum_equiv (finProdFinEquiv (m := 128) (n := 1024)) _ f ?_).symm
  rintro ⟨t, r⟩
  refine congrArg f (Fin.ext ?_)
  show 1024 * t.val + r.val = r.val + 1024 * t.val
  omega

theorem fold_eq_sum (a g : ℕ → M) (h0 : a 0 = g 0)
    (hs : ∀ n, n + 1 < 128 → a (n + 1) = a n + g (n + 1)) : a 127 = ∑ t : Fin 128, g t.val := by
  have key : ∀ n, n < 128 → a n = ∑ t ∈ Finset.range (n + 1), g t := by
    intro n
    induction n with
    | zero => intro _; rw [h0, Finset.sum_range_one]
    | succ n ih =>
      intro hn
      rw [hs n hn, ih (by omega), Finset.sum_range_succ (fun t => g t) (n + 1)]
  rw [key 127 (by omega), Fin.sum_univ_eq_sum_range]

end Cert.Sums
-- ==== Proof.Folds.lean ====
import proofs.«148436_j816043786555_1_alg».proof.Proof.PayIdx0
import proofs.«148436_j816043786555_1_alg».proof.Proof.Sums
import proofs.«148436_j816043786555_1_alg».proof.Proof.Spec

noncomputable section

open scoped BigOperators

namespace Cert.KernelIdeal.Folds

open Cert.KernelIdeal Cert.KernelIdeal.Gen Cert.KernelIdeal.PayIdx Idealize.ShloMosaic Idealize.ShloMosaic.ValueIdx

theorem colSum_of_fold (y : Cert.Spec.SNxD.Idx → EReal) (xb : ℕ → Vec Ideal S1024x128 .f32) (sc : ℕ → Vec Ideal S1x128 .f32)
    (hb : ∀ t (ht : t < 128) (r : Fin 1024) (d : Fin 128), xb t (ix2 r d) = y (ix2 (Cert.Sums.rowOf ⟨t, ht⟩ r) d))
    (h0 : sc 0 = k0_pay3 (xb 0) (k0_pay1 (F := Ideal)))
    (hs : ∀ n, n + 1 < 128 → sc (n + 1) = k0_pay3 (xb (n + 1)) (sc n)) (d : Fin 128) :
    sc 127 (ix2 (0 : Fin 1) d) = Cert.Spec.colSum y d := by
  have key := Cert.Sums.fold_eq_sum (fun n => sc n (ix2 (0 : Fin 1) d)) (fun t => ∑ r : Fin 1024, xb t (ix2 r d))
    (by show sc 0 (ix2 (0 : Fin 1) d) = _; rw [h0, k0_pay3_apply, k0_pay1_apply, zero_add])
    (fun n hn => by show sc (n + 1) (ix2 (0 : Fin 1) d) = _; rw [hs n hn, k0_pay3_apply])
  refine key.trans ?_
  unfold Cert.Spec.colSum
  rw [Cert.Sums.sum_tiles]
  exact Finset.sum_congr rfl fun t _ => Finset.sum_congr rfl fun r _ => hb t.val t.isLt r d

theorem colSumSq_of_fold (y : Cert.Spec.SNxD.Idx → EReal) (xb : ℕ → Vec Ideal S1024x128 .f32) (sc : ℕ → Vec Ideal S1x128 .f32)
    (hb : ∀ t (ht : t < 128) (r : Fin 1024) (d : Fin 128), xb t (ix2 r d) = y (ix2 (Cert.Sums.rowOf ⟨t, ht⟩ r) d))
    (h0 : sc 0 = k0_pay4 (xb 0) (k0_pay2 (F := Ideal)))
    (hs : ∀ n, n + 1 < 128 → sc (n + 1) = k0_pay4 (xb (n + 1)) (sc n)) (d : Fin 128) :
    sc 127 (ix2 (0 : Fin 1) d) = Cert.Spec.colSumSq y d := by
  have key := Cert.Sums.fold_eq_sum (fun n => sc n (ix2 (0 : Fin 1) d))
    (fun t => ∑ r : Fin 1024, xb t (ix2 r d) * xb t (ix2 r d))
    (by show sc 0 (ix2 (0 : Fin 1) d) = _; rw [h0, k0_pay4_apply, k0_pay2_apply, zero_add])
    (fun n hn => by show sc (n + 1) (ix2 (0 : Fin 1) d) = _; rw [hs n hn, k0_pay4_apply])
  refine key.trans ?_
  unfold Cert.Spec.colSumSq
  rw [Cert.Sums.sum_tiles]
  exact Finset.sum_congr rfl fun t _ => Finset.sum_congr rfl fun r _ => by
    rw [hb t.val t.isLt r d]

end Cert.KernelIdeal.Folds

end
-- ==== Proof.Folds1.lean ====
import proofs.«148436_j816043786555_1_alg».proof.Proof.PayIdx0
import proofs.«148436_j816043786555_1_alg».proof.Proof.Sums
import proofs.«148436_j816043786555_1_alg».proof.Proof.Spec

noncomputable section

open scoped BigOperators

namespace Cert.KernelIdeal.Folds

open Cert.KernelIdeal Cert.KernelIdeal.Gen Cert.KernelIdeal.PayIdx Idealize.ShloMosaic Idealize.ShloMosaic.ValueIdx
open Cert.Spec

section
variable (x y : SNxD.Idx → EReal) (W1m : SDxH.Idx → EReal) (b1m : SH.Idx → EReal) (W2m : SHxD.Idx → EReal) (b2m : SD.Idx → EReal)
  (W1v : SDxH.Idx → EReal) (b1v : SH.Idx → EReal) (W2v : SHxD.Idx → EReal) (b2v : SD.Idx → EReal)
  (b1m' : Vec Ideal S1x512 .f32) (b2m' : Vec Ideal S1x128 .f32) (b1v' : Vec Ideal S1x512 .f32) (b2v' : Vec Ideal S1x128 .f32)
  (ym' y2m' : Vec Ideal S1x128 .f32)

theorem rowValOf_tile (xb yb : Vec Ideal S1024x128 .f32) (n : Fin 131072) (r : Fin 1024)
    (hx : ∀ k : Fin 128, xb (ix2 r k) = x (ix2 n k)) (hy : ∀ d : Fin 128, yb (ix2 r d) = y (ix2 n d))
    (hb1m : ∀ j : Fin 512, b1m' (ix2 (0 : Fin 1) j) = b1m (ix1 j)) (hb2m : ∀ d : Fin 128, b2m' (ix2 (0 : Fin 1) d) = b2m (ix1 d))
    (hb1v : ∀ j : Fin 512, b1v' (ix2 (0 : Fin 1) j) = b1v (ix1 j)) (hb2v : ∀ d : Fin 128, b2v' (ix2 (0 : Fin 1) d) = b2v (ix1 d))
    (hym : ∀ d : Fin 128, ym' (ix2 (0 : Fin 1) d) = colMean y d) (hy2m : ∀ d : Fin 128, y2m' (ix2 (0 : Fin 1) d) = colMeanSq y d) :
    rowValOf (fun k => xb (ix2 r k)) (fun d => yb (ix2 r d)) W1m (fun j => b1m' (ix2 (0 : Fin 1) j)) W2m
        (fun d => b2m' (ix2 (0 : Fin 1) d)) W1v (fun j => b1v' (ix2 (0 : Fin 1) j)) W2v (fun d => b2v' (ix2 (0 : Fin 1) d))
        (fun d => ym' (ix2 (0 : Fin 1) d)) (fun d => y2m' (ix2 (0 : Fin 1) d))
      = rowVal x y W1m b1m W2m b2m W1v b1v W2v b2v (colMean y) (colMeanSq y) n := by
  rw [funext hx, funext hy, funext hb1m, funext hb2m, funext hb1v, funext hb2v, funext hym, funext hy2m]
  rfl

theorem totalSum_of_fold_core
    (stp : Vec Ideal S1024x128 .f32 → Vec Ideal S1024x128 .f32 → Vec Ideal S1x1 .f32 → Vec Ideal S1x1 .f32)
    (hstp : ∀ (xb yb : Vec Ideal S1024x128 .f32) (prev : Vec Ideal S1x1 .f32),
      stp xb yb prev (ix2 (0 : Fin 1) (0 : Fin 1)) = prev (ix2 (0 : Fin 1) (0 : Fin 1))
        + ∑ r : Fin 1024, rowValOf (fun k => xb (ix2 r k)) (fun d => yb (ix2 r d)) W1m (fun j => b1m' (ix2 (0 : Fin 1) j)) W2m
            (fun d => b2m' (ix2 (0 : Fin 1) d)) W1v (fun j => b1v' (ix2 (0 : Fin 1) j)) W2v (fun d => b2v' (ix2 (0 : Fin 1) d))
            (fun d => ym' (ix2 (0 : Fin 1) d)) (fun d => y2m' (ix2 (0 : Fin 1) d)))
    (xbT ybT : ℕ → Vec Ideal S1024x128 .f32) (acc : ℕ → Vec Ideal S1x1 .f32) (z : Vec Ideal S1x1 .f32)
    (hx : ∀ t (ht : t < 128) (r : Fin 1024) (k : Fin 128), xbT t (ix2 r k) = x (ix2 (Cert.Sums.rowOf ⟨t, ht⟩ r) k))
    (hy : ∀ t (ht : t < 128) (r : Fin 1024) (d : Fin 128), ybT t (ix2 r d) = y (ix2 (Cert.Sums.rowOf ⟨t, ht⟩ r) d))
    (hb1m : ∀ j : Fin 512, b1m' (ix2 (0 : Fin 1) j) = b1m (ix1 j)) (hb2m : ∀ d : Fin 128, b2m' (ix2 (0 : Fin 1) d) = b2m (ix1 d))
    (hb1v : ∀ j : Fin 512, b1v' (ix2 (0 : Fin 1) j) = b1v (ix1 j)) (hb2v : ∀ d : Fin 128, b2v' (ix2 (0 : Fin 1) d) = b2v (ix1 d))
    (hym : ∀ d : Fin 128, ym' (ix2 (0 : Fin 1) d) = colMean y d) (hy2m : ∀ d : Fin 128, y2m' (ix2 (0 : Fin 1) d) = colMeanSq y d)
    (hz : z (ix2 (0 : Fin 1) (0 : Fin 1)) = 0)
    (h0 : acc 0 = stp (xbT 0) (ybT 0) z)
    (hs : ∀ n, n + 1 < 128 → acc (n + 1) = stp (xbT (n + 1)) (ybT (n + 1)) (acc n)) :
    acc 127 (ix2 (0 : Fin 1) (0 : Fin 1)) = totalSum x y W1m b1m W2m b2m W1v b1v W2v b2v := by
  have key := Cert.Sums.fold_eq_sum (fun n => acc n (ix2 (0 : Fin 1) (0 : Fin 1)))
    (fun t => ∑ r : Fin 1024, rowValOf (fun k => xbT t (ix2 r k)) (fun d => ybT t (ix2 r d)) W1m
        (fun j => b1m' (ix2 (0 : Fin 1) j)) W2m (fun d => b2m' (ix2 (0 : Fin 1) d)) W1v (fun j => b1v' (ix2 (0 : Fin 1) j)) W2v
        (fun d => b2v' (ix2 (0 : Fin 1) d)) (fun d => ym' (ix2 (0 : Fin 1) d)) (fun d => y2m' (ix2 (0 : Fin 1) d)))
    (by show acc 0 (ix2 (0 : Fin 1) (0 : Fin 1)) = _; rw [h0, hstp, hz, zero_add])
    (fun n hn => by show acc (n + 1) (ix2 (0 : Fin 1) (0 : Fin 1)) = _; rw [hs n hn, hstp])
  refine key.trans ?_
  unfold totalSum
  rw [Cert.Sums.sum_tiles]
  exact Finset.sum_congr rfl fun t _ => Finset.sum_congr rfl fun r _ =>
    rowValOf_tile x y W1m b1m W2m b2m W1v b1v W2v b2v b1m' b2m' b1v' b2v' ym' y2m' (xbT t.val) (ybT t.val)
      (Cert.Sums.rowOf t r) r (hx t.val t.isLt r) (hy t.val t.isLt r) hb1m hb2m hb1v hb2v hym hy2m

end

end Cert.KernelIdeal.Folds

end
-- ==== Proof.PayIdx1.lean ====
import proofs.«148436_j816043786555_1_alg».proof.Proof.KiShared1
import proofs.«148436_j816043786555_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx
open Cert.KernelIdeal.Hand (step1)

theorem lhs_dot1_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_dot1_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_dot1_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_dot1_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

theorem mm1_apply {φ₁ φ₂ : FTy} (lhs : FVec Ideal S1024x128 φ₁) (rhs : FVec Ideal S128x512 φ₂) (r : Fin 1024) (j : Fin 512) :
    FloatOps.matmul dot_S1024x128_S128x512_S1024x512_1_0_0_1_n_n none lhs rhs (constant (F := Ideal) S1024x512 .f32 0x00000000#32) (ix2 r j)
      = ∑ k : Fin 128, lhs (ix2 r k) * rhs (ix2 k j) := by
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r j) ((contrEquiv1 dot_S1024x128_S128x512_S1024x512_1_0_0_1_n_n 128 rfl rfl).symm k) = ix2 r k := funext fun a => Fin.ext (by
    match a with
    | ⟨0, _⟩ => exact lhs_dot1_0 _ _
    | ⟨1, _⟩ => exact (lhs_dot1_1 _ _).trans hk)
  have er : dot_S1024x128_S128x512_S1024x512_1_0_0_1_n_n.rhsIdx (ix2 r j) ((contrEquiv1 dot_S1024x128_S128x512_S1024x512_1_0_0_1_n_n 128 rfl rfl).symm k) = ix2 k j := funext fun a => Fin.ext (by
    match a with
    | ⟨0, _⟩ => exact (rhs_dot1_0 _ _).trans hk
    | ⟨1, _⟩ => exact rhs_dot1_1 _ _)
  rw [el, er]

theorem lhs_dot2_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs_dot2_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_dot2_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_dot2_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

theorem mm2_apply {φ₁ φ₂ : FTy} (lhs : FVec Ideal S1024x512 φ₁) (rhs : FVec Ideal S512x128 φ₂) (r : Fin 1024) (d : Fin 128) :
    FloatOps.matmul dot_S1024x512_S512x128_S1024x128_1_0_0_1_n_n none lhs rhs (constant (F := Ideal) S1024x128 .f32 0x00000000#32) (ix2 r d)
      = ∑ j : Fin 512, lhs (ix2 r j) * rhs (ix2 j d) := by
  rw [Ideal.matmul_constant_zero_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 r d) ((contrEquiv1 dot_S1024x512_S512x128_S1024x128_1_0_0_1_n_n 512 rfl rfl).symm k) = ix2 r k := funext fun a => Fin.ext (by
    match a with
    | ⟨0, _⟩ => exact lhs_dot2_0 _ _
    | ⟨1, _⟩ => exact (lhs_dot2_1 _ _).trans hk)
  have er : dot_S1024x512_S512x128_S1024x128_1_0_0_1_n_n.rhsIdx (ix2 r d) ((contrEquiv1 dot_S1024x512_S512x128_S1024x128_1_0_0_1_n_n 512 rfl rfl).symm k) = ix2 k d := funext fun a => Fin.ext (by
    match a with
    | ⟨0, _⟩ => exact (rhs_dot2_0 _ _).trans hk
    | ⟨1, _⟩ => exact rhs_dot2_1 _ _)
  rw [el, er]

theorem leaky_apply (pre : FVec Ideal S1024x512 .f32) (i : S1024x512.Idx) :
    select (cmpf .oge pre (broadcast S1024x512 (Scalar.ofBits (F := Ideal) .f32 0x00000000#32))) pre
        (mulf (broadcast S1024x512 (Scalar.ofBits (F := Ideal) .f32 0x3E4CCCCD#32)) pre) i
      = Cert.Spec.leaky (pre i) := rfl

theorem preAct_apply {φ₁ φ₂ : FTy} (x : FVec Ideal S1024x128 φ₁) (w : FVec Ideal S128x512 φ₂) (b : FVec Ideal S1x512 .f32)
    (hb : S1x512.Broadcasts S1024x512) (r : Fin 1024) (j : Fin 512) :
    addf (matmul dot_S1024x128_S128x512_S1024x512_1_0_0_1_n_n none x w (constant (F := Ideal) S1024x512 .f32 0x00000000#32))
        (broadcastTo S1024x512 b hb) (ix2 r j)
      = (∑ k : Fin 128, x (ix2 r k) * w (ix2 k j)) + b (ix2 (0 : Fin 1) j) := by
  refine (addf_apply _ _ _).trans ?_
  rw [broadcastTo_1b_ab_apply]
  exact congrArg (· + b (ix2 (0 : Fin 1) j)) (mm1_apply x w r j)

set_option maxHeartbeats 400000 in
theorem k1_pay9_apply (v3 : Vec Ideal S1024x128 .f32) (v6 : Vec Ideal S128x512 .f32) (v8 : Vec Ideal S1x512 .f32)
    (v10 : Vec Ideal S512x128 .f32) (r : Fin 1024) (d : Fin 128) :
    k1_pay9 v3 v6 v8 v10 (ix2 r d)
      = ∑ j : Fin 512, Cert.Spec.hidRow (fun k => v3 (ix2 r k)) v6 (fun j => v8 (ix2 (0 : Fin 1) j)) j * v10 (ix2 j d) := by
  unfold k1_pay9
  refine (mm2_apply _ _ r d).trans ?_
  refine Finset.sum_congr rfl fun j _ => ?_
  refine congrArg (· * v10 (ix2 j d)) ?_
  refine (leaky_apply _ _).trans ?_
  unfold Cert.Spec.hidRow
  refine congrArg Cert.Spec.leaky ?_
  refine (preAct_apply _ _ _ _ r j).trans ?_
  rw [shapeCast_self]
  rfl

theorem k1_pay10_apply (v13 : FVec Ideal S1x128 .f32) (v31 : FVec Ideal S1024x128 .f32) (r : Fin 1024) (d : Fin 128) :
    k1_pay10 v13 v31 (ix2 r d) = v31 (ix2 r d) + v13 (ix2 (0 : Fin 1) d) := by
  unfold k1_pay10
  refine (addf_apply _ _ _).trans ?_
  rw [broadcastTo_1b_ab_apply]

theorem invVar_apply (z : FVec Ideal S1024x128 .f32) (i : S1024x128.Idx) :
    exp (subf (broadcast S1024x128 (Scalar.ofBits (F := Ideal) .f32 0x00000000#32)) (tanh z)) i = Cert.Spec.invVar (z i) := by
  show Ideal.exp (Ideal.ofBits .f32 0x00000000#32 - Ideal.tanh (z i)) = Ideal.exp (-(Ideal.tanh (z i)))
  rw [Ideal.ofBits_zero_f32, zero_sub]

set_option maxHeartbeats 400000 in
theorem k1_pay11_apply (v4 : FVec Ideal S1024x128 .bf16) (v15 : FVec Ideal S128x512 .bf16) (v17 : FVec Ideal S1x512 .f32)
    (v19 : FVec Ideal S512x128 .bf16) (v21 : FVec Ideal S1x128 .f32) (r : Fin 1024) (d : Fin 128) :
    k1_pay11 v4 v15 v17 v19 v21 (ix2 r d)
      = Cert.Spec.invVar (Cert.Spec.netRow (fun k => v4 (ix2 r k)) v15 (fun j => v17 (ix2 (0 : Fin 1) j)) v19
          (fun d => v21 (ix2 (0 : Fin 1) d)) d) := by
  unfold k1_pay11
  refine (invVar_apply _ _).trans ?_
  refine congrArg Cert.Spec.invVar ?_
  unfold Cert.Spec.netRow
  refine (addf_apply _ _ _).trans ?_
  rw [broadcastTo_1b_ab_apply]
  refine congrArg (· + v21 (ix2 (0 : Fin 1) d)) ?_
  refine (mm2_apply _ _ r d).trans ?_
  refine Finset.sum_congr rfl fun j _ => ?_
  refine congrArg (· * v19 (ix2 j d)) ?_
  refine (leaky_apply _ _).trans ?_
  unfold Cert.Spec.hidRow
  refine congrArg Cert.Spec.leaky ?_
  exact preAct_apply _ _ _ _ r j

theorem posTerm_apply (mu y iv : FVec Ideal S1024x128 .f32) (i : S1024x128.Idx) :
    mulf (mulf (subf (broadcast S1024x128 (Scalar.ofBits (F := Ideal) .f32 0x00000000#32)) (mulf (subf mu y) (subf mu y)))
        (broadcast S1024x128 (Scalar.ofBits (F := Ideal) .f32 0x3F000000#32))) iv i
      = Cert.Spec.posTerm (mu i) (y i) (iv i) := by
  unfold Cert.Spec.posTerm
  show (Ideal.ofBits .f32 0x00000000#32 - (mu i - y i) * (mu i - y i)) * Cert.Spec.cHalf * iv i = _
  rw [Ideal.ofBits_zero_f32, zero_sub]

theorem negTerm_apply (mu ymB y2mB iv : FVec Ideal S1024x128 .f32) (i : S1024x128.Idx) :
    mulf (mulf (subf (broadcast S1024x128 (Scalar.ofBits (F := Ideal) .f32 0x00000000#32))
          (addf (subf y2mB (mulf (mulf (broadcast S1024x128 (Scalar.ofBits (F := Ideal) .f32 0x40000000#32)) mu) ymB)) (mulf mu mu)))
        (broadcast S1024x128 (Scalar.ofBits (F := Ideal) .f32 0x3F000000#32))) iv i
      = Cert.Spec.negTerm (mu i) (ymB i) (y2mB i) (iv i) := by
  unfold Cert.Spec.negTerm
  show (Ideal.ofBits .f32 0x00000000#32 - ((y2mB i - (Cert.Spec.cTwo * mu i) * ymB i) + mu i * mu i)) * Cert.Spec.cHalf * iv i = _
  rw [Ideal.ofBits_zero_f32, zero_sub]

set_option maxHeartbeats 400000 in
theorem k1_pay12_apply (v4 : FVec Ideal S1024x128 .bf16) (v13 : FVec Ideal S1x128 .f32) (v15 : FVec Ideal S128x512 .bf16)
    (v17 : FVec Ideal S1x512 .f32) (v19 : FVec Ideal S512x128 .bf16) (v21 : FVec Ideal S1x128 .f32)
    (v31 : FVec Ideal S1024x128 .f32) (v57 v59 : Vec Ideal S1x128 .f32) (r : Fin 1024) (d : Fin 128) :
    k1_pay12 v4 v13 v15 v17 v19 v21 v31 v57 v59 (ix2 r d)
      = Cert.Spec.negTerm (k1_pay10 v13 v31 (ix2 r d)) (v57 (ix2 (0 : Fin 1) d)) (v59 (ix2 (0 : Fin 1) d))
          (k1_pay11 v4 v15 v17 v19 v21 (ix2 r d)) := by
  unfold k1_pay12
  refine (negTerm_apply _ _ _ _ _).trans ?_
  rw [broadcastTo_1b_ab_apply, broadcastTo_1b_ab_apply, shapeCast_self, shapeCast_self]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowReduce_apply (src : FVec Ideal S1024x128 .f32) (h : S1024x128.Reduces [1] S1024) (hφ : FKind.Formats .f32)
    (hacc : (0x00000000#32 : BitVec 32) = FKind.add.neutral .f32 hφ) (hc : S1024.ShapeCasts S1024x1) (r : Fin 1024) :
    shapeCast S1024x1 (multiReduction (F := Ideal) .add [1] S1024 src 0x00000000#32 h hφ hacc) hc (ix2 r (0 : Fin 1))
      = ∑ d : Fin 128, src (ix2 r d) := by
  refine (shapeCast_a_a1_apply _ hc r (0 : Fin 1)).trans ?_
  refine (Ideal.multiReduction_add_single src 0x00000000#32 h hφ hacc (ix1 r)).trans ?_
  refine Finset.sum_congr rfl fun d _ => congrArg src ?_
  funext a
  match a with
  | ⟨0, _⟩ => rfl
  | ⟨1, _⟩ => rfl

theorem colReduce1_apply (src : FVec Ideal S1024x1 .f32) (h : S1024x1.Reduces [0] S1) (hφ : FKind.Formats .f32)
    (hacc : (0x00000000#32 : BitVec 32) = FKind.add.neutral .f32 hφ) (hc : S1.ShapeCasts S1x1) :
    shapeCast S1x1 (multiReduction (F := Ideal) .add [0] S1 src 0x00000000#32 h hφ hacc) hc (ix2 (0 : Fin 1) (0 : Fin 1))
      = ∑ r : Fin 1024, src (ix2 r (0 : Fin 1)) := by
  refine (shapeCast_a_1a_apply _ hc (0 : Fin 1) (0 : Fin 1)).trans ?_
  refine (Ideal.multiReduction_add_single src 0x00000000#32 h hφ hacc (ix1 (0 : Fin 1))).trans ?_
  refine Finset.sum_congr rfl fun r _ => congrArg src ?_
  funext a
  match a with
  | ⟨0, _⟩ => rfl
  | ⟨1, _⟩ => rfl

set_option maxHeartbeats 400000 in
theorem k1_pay13_apply (v4 : FVec Ideal S1024x128 .bf16) (v5 : Vec Ideal S1024x128 .f32) (v13 : FVec Ideal S1x128 .f32)
    (v15 : FVec Ideal S128x512 .bf16) (v17 : FVec Ideal S1x512 .f32) (v19 : FVec Ideal S512x128 .bf16)
    (v21 : FVec Ideal S1x128 .f32) (v31 : FVec Ideal S1024x128 .f32) (r : Fin 1024) :
    k1_pay13 v4 v5 v13 v15 v17 v19 v21 v31 (ix2 r (0 : Fin 1))
      = ∑ d : Fin 128, Cert.Spec.posTerm (k1_pay10 v13 v31 (ix2 r d)) (v5 (ix2 r d)) (k1_pay11 v4 v15 v17 v19 v21 (ix2 r d)) := by
  unfold k1_pay13
  refine (rowReduce_apply _ _ _ _ _ r).trans ?_
  exact Finset.sum_congr rfl fun d _ => posTerm_apply _ _ _ _

set_option maxHeartbeats 400000 in
theorem k1_pay1_apply (v73 : FVec Ideal S1024x128 .f32) (v75 : FVec Ideal S1024x1 .f32) (v81 : Vec Ideal S1x1 .f32) :
    k1_pay1 v73 v75 v81 (ix2 (0 : Fin 1) (0 : Fin 1))
      = v81 (ix2 (0 : Fin 1) (0 : Fin 1))
        + ∑ r : Fin 1024, (v75 (ix2 r (0 : Fin 1)) - ∑ d : Fin 128, v73 (ix2 r d)) := by
  unfold k1_pay1
  rw [shapeCast_self]
  refine (addf_apply _ _ _).trans ?_
  refine congrArg (v81 (ix2 (0 : Fin 1) (0 : Fin 1)) + ·) ?_
  refine (colReduce1_apply _ _ _ _ _).trans ?_
  refine Finset.sum_congr rfl fun r _ => ?_
  refine (subf_apply _ _ _).trans ?_
  exact congrArg (v75 (ix2 r (0 : Fin 1)) - ·) (rowReduce_apply v73 _ _ _ _ r)

theorem k1_pay2_apply (j : S1x1.Idx) : (k1_pay2 (F := Ideal)) j = 0 := by
  unfold k1_pay2
  rw [shapeCast_self]
  exact Ideal.ofBits_zero_f32

theorem netRow_congr {xr xr' : Fin 128 → EReal} {W1 W1' : Cert.Spec.SDxH.Idx → EReal} {b1 b1' : Fin 512 → EReal}
    {W2 W2' : Cert.Spec.SHxD.Idx → EReal} {b2 b2' : Fin 128 → EReal} (hx : ∀ k, xr k = xr' k) (hW1 : ∀ i, W1 i = W1' i)
    (hb1 : ∀ j, b1 j = b1' j) (hW2 : ∀ i, W2 i = W2' i) (hb2 : ∀ d, b2 d = b2' d) (d : Fin 128) :
    Cert.Spec.netRow xr W1 b1 W2 b2 d = Cert.Spec.netRow xr' W1' b1' W2' b2' d := by
  obtain rfl : xr = xr' := funext hx
  obtain rfl : W1 = W1' := funext hW1
  obtain rfl : b1 = b1' := funext hb1
  obtain rfl : W2 = W2' := funext hW2
  obtain rfl : b2 = b2' := funext hb2
  rfl

set_option maxHeartbeats 400000 in
theorem mu_apply (xb : Vec Ideal S1024x128 .f32) (W1m : Vec Ideal S128x512 .f32) (b1m : Vec Ideal S1x512 .f32)
    (W2m : Vec Ideal S512x128 .f32) (b2m : Vec Ideal S1x128 .f32) (r : Fin 1024) (d : Fin 128) :
    k1_pay10 (k1_pay4 b2m) (k1_pay9 xb W1m b1m W2m) (ix2 r d)
      = Cert.Spec.netRow (fun k => xb (ix2 r k)) W1m (fun j => b1m (ix2 (0 : Fin 1) j)) W2m (fun d => b2m (ix2 (0 : Fin 1) d)) d := by
  rw [k1_pay10_apply, k1_pay9_apply]
  unfold k1_pay4
  rw [shapeCast_self]
  rfl

set_option maxHeartbeats 400000 in
theorem iv_apply (xb : Vec Ideal S1024x128 .f32) (W1v : Vec Ideal S128x512 .f32) (b1v : Vec Ideal S1x512 .f32)
    (W2v : Vec Ideal S512x128 .f32) (b2v : Vec Ideal S1x128 .f32) (r : Fin 1024) (d : Fin 128) :
    k1_pay11 (k1_pay3 xb) (k1_pay5 W1v) (k1_pay6 b1v) (k1_pay7 W2v) (k1_pay8 b2v) (ix2 r d)
      = Cert.Spec.invVar (Cert.Spec.netRow (fun k => xb (ix2 r k)) W1v (fun j => b1v (ix2 (0 : Fin 1) j)) W2v
          (fun d => b2v (ix2 (0 : Fin 1) d)) d) := by
  rw [k1_pay11_apply]
  refine congrArg Cert.Spec.invVar (netRow_congr (fun k => rfl) (fun i => rfl) (fun j => ?_) (fun i => rfl) (fun d => ?_) d)
  · unfold k1_pay6; rw [shapeCast_self]
  · unfold k1_pay8; rw [shapeCast_self]

set_option maxHeartbeats 400000 in
theorem step1_apply (xb yb : Vec Ideal S1024x128 .f32) (W1m : Vec Ideal S128x512 .f32) (b1m : Vec Ideal S1x512 .f32)
    (W2m : Vec Ideal S512x128 .f32) (b2m : Vec Ideal S1x128 .f32) (W1v : Vec Ideal S128x512 .f32) (b1v : Vec Ideal S1x512 .f32)
    (W2v : Vec Ideal S512x128 .f32) (b2v : Vec Ideal S1x128 .f32) (ym y2m : Vec Ideal S1x128 .f32) (prev : Vec Ideal S1x1 .f32) :
    step1 xb yb W1m b1m W2m b2m W1v b1v W2v b2v ym y2m prev (ix2 (0 : Fin 1) (0 : Fin 1))
      = prev (ix2 (0 : Fin 1) (0 : Fin 1))
        + ∑ r : Fin 1024, Cert.Spec.rowValOf (fun k => xb (ix2 r k)) (fun d => yb (ix2 r d)) W1m (fun j => b1m (ix2 (0 : Fin 1) j)) W2m
            (fun d => b2m (ix2 (0 : Fin 1) d)) W1v (fun j => b1v (ix2 (0 : Fin 1) j)) W2v (fun d => b2v (ix2 (0 : Fin 1) d))
            (fun d => ym (ix2 (0 : Fin 1) d)) (fun d => y2m (ix2 (0 : Fin 1) d)) := by
  unfold step1
  refine (k1_pay1_apply _ _ _).trans ?_
  refine congrArg (prev (ix2 (0 : Fin 1) (0 : Fin 1)) + ·) ?_
  refine Finset.sum_congr rfl fun r _ => ?_
  unfold Cert.Spec.rowValOf
  rw [k1_pay13_apply]
  refine congrArg₂ (· - ·) ?_ ?_
  · refine Finset.sum_congr rfl fun d _ => ?_
    rw [mu_apply, iv_apply]
  · refine Finset.sum_congr rfl fun d _ => ?_
    rw [k1_pay12_apply, mu_apply, iv_apply]

end Cert.KernelIdeal.PayIdx

end
-- ==== Proof.HostIdx.lean ====
import proofs.«148436_j816043786555_1_alg».proof.Proof.Gen.KernelIdeal
import proofs.«148436_j816043786555_1_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Hand

open Cert.KernelIdeal Cert.KernelIdeal.Gen
open Idealize.ShloMosaic Idealize.ShloMosaic.ValueIdx

theorem divRows_apply (a : Vec Ideal S1x128 .f32) (d : Fin 128) :
    Host.divf a (broadcastInDim S1x128 ![] bcast_S_S1x128 (constant (F := Ideal) S_ .f32 0x48000000#32)) (ix2 (0 : Fin 1) d)
      = Ideal.div (a (ix2 (0 : Fin 1) d)) Cert.Spec.cRows := by
  rw [hostDivf_apply, broadcastInDim_scalar_apply, constant_apply]

theorem row512_apply (b : Vec Ideal S512 .f32) (j : Fin 512) :
    shapeCast S1x512 b shapeCasts_S512_S1x512 (ix2 (0 : Fin 1) j) = b (ix1 j) :=
  shapeCast_a_1a_apply b shapeCasts_S512_S1x512 0 j

theorem row128_apply (b : Vec Ideal S128 .f32) (d : Fin 128) :
    shapeCast S1x128 b shapeCasts_S128_S1x128 (ix2 (0 : Fin 1) d) = b (ix1 d) :=
  shapeCast_a_1a_apply b shapeCasts_S128_S1x128 0 d

theorem scalar11_apply (a : Vec Ideal S1x1 .f32) (i : S_.Idx) :
    shapeCast S_ a shapeCasts_S1x1_S_ i = a (ix2 (0 : Fin 1) (0 : Fin 1)) :=
  shapeCast_apply a shapeCasts_S1x1_S_ i (ix2 (0 : Fin 1) (0 : Fin 1)) (by
    have hn : S_.numel = 1 := by decide
    have h1 : (S_.rowMajor i).val < S_.numel := (S_.rowMajor i).isLt
    rw [Shape.rowMajor_val_two]
    show 0 * 1 + 0 = _
    omega)

theorem divTotal_apply (a : Vec Ideal S1x1 .f32) (i : S_.Idx) :
    Host.divf (shapeCast S_ a shapeCasts_S1x1_S_) (constant (F := Ideal) S_ .f32 0x48000000#32) i
      = Ideal.div (a (ix2 (0 : Fin 1) (0 : Fin 1))) Cert.Spec.cRows := by
  rw [hostDivf_apply, scalar11_apply, constant_apply]

end Cert.KernelIdeal.Hand

end
-- ==== Proof.KiValue.lean ====
import proofs.«148436_j816043786555_1_alg».proof.Proof.KiRunMain
import proofs.«148436_j816043786555_1_alg».proof.Proof.KiBlocks
import proofs.«148436_j816043786555_1_alg».proof.Proof.Folds
import proofs.«148436_j816043786555_1_alg».proof.Proof.Folds1
import proofs.«148436_j816043786555_1_alg».proof.Proof.PayIdx1
import proofs.«148436_j816043786555_1_alg».proof.Proof.Spec
import proofs.«148436_j816043786555_1_alg».proof.Proof.HostIdx
import Idealize.ShloMosaic.Lib.IdealHost
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section

variable {F : FTy → Type} [FloatOps F] (m : (ℓ : Loc nD τ sig) → Buf (Elt F) ℓ) (ρ : Dev nD → PrngReg)

theorem W4_result (c : Dev nD) : W4 m ρ c (Proc.devRef .tc main_v11) =
    Host.divf (shapeCast S_ (W3 m ρ c (Proc.devRef .tc main_v9)) shapeCasts_S1x1_S_) (constant S_ .f32 0x48000000#32) := by
  show StableHlo.after hostOps2 (W3 m ρ c) (Proc.devRef .tc main_v11) = _
  after_results
  rfl

theorem W3_main_v9 (c : Dev nD) : W3 m ρ c (Proc.devRef .tc main_v9) = (dat1 (V2 m ρ) c).arrAt 12 cfg1.N := W3_arr m ρ c 12

theorem W2_main_v2 (c : Dev nD) : W2 m ρ c (Proc.devRef .tc main_v2) =
    Host.divf (W1 m ρ c (Proc.devRef .tc main_v0_0)) (broadcastInDim S1x128 ![] bcast_S_S1x128 (constant S_ .f32 0x48000000#32)) := by
  show StableHlo.after hostOps1 (W1 m ρ c) (Proc.devRef .tc main_v2) = _
  after_results

theorem W2_main_v4 (c : Dev nD) : W2 m ρ c (Proc.devRef .tc main_v4) =
    Host.divf (W1 m ρ c (Proc.devRef .tc main_v0_1)) (broadcastInDim S1x128 ![] bcast_S_S1x128 (constant S_ .f32 0x48000000#32)) := by
  show StableHlo.after hostOps1 (W1 m ρ c) (Proc.devRef .tc main_v4) = _
  after_results

theorem W1_main_v0_0 (c : Dev nD) : W1 m ρ c (Proc.devRef .tc main_v0_0) = (dat0 (V0 m ρ) c).arrAt 1 cfg0.N := W1_arr m ρ c 1
theorem W1_main_v0_1 (c : Dev nD) : W1 m ρ c (Proc.devRef .tc main_v0_1) = (dat0 (V0 m ρ) c).arrAt 2 cfg0.N := W1_arr m ρ c 2

theorem W2_main_v5 (c : Dev nD) : W2 m ρ c (Proc.devRef .tc main_v5) = shapeCast S1x512 (m ((c : Thread nD τ).loc main_arg3)) shapeCasts_S512_S1x512 := by
  show StableHlo.after hostOps1 (W1 m ρ c) (Proc.devRef .tc main_v5) = _
  after_results
  rw [W1_of_ne m ρ c main_arg3 (by decide)]
  rfl
theorem W2_main_v6 (c : Dev nD) : W2 m ρ c (Proc.devRef .tc main_v6) = shapeCast S1x128 (m ((c : Thread nD τ).loc main_arg5)) shapeCasts_S128_S1x128 := by
  show StableHlo.after hostOps1 (W1 m ρ c) (Proc.devRef .tc main_v6) = _
  after_results
  rw [W1_of_ne m ρ c main_arg5 (by decide)]
  rfl
theorem W2_main_v7 (c : Dev nD) : W2 m ρ c (Proc.devRef .tc main_v7) = shapeCast S1x512 (m ((c : Thread nD τ).loc main_arg7)) shapeCasts_S512_S1x512 := by
  show StableHlo.after hostOps1 (W1 m ρ c) (Proc.devRef .tc main_v7) = _
  after_results
  rw [W1_of_ne m ρ c main_arg7 (by decide)]
  rfl
theorem W2_main_v8 (c : Dev nD) : W2 m ρ c (Proc.devRef .tc main_v8) = shapeCast S1x128 (m ((c : Thread nD τ).loc main_arg9)) shapeCasts_S128_S1x128 := by
  show StableHlo.after hostOps1 (W1 m ρ c) (Proc.devRef .tc main_v8) = _
  after_results
  rw [W1_of_ne m ρ c main_arg9 (by decide)]
  rfl

end

variable (m : (ℓ : Loc nD τ sig) → Buf (Elt Ideal) ℓ) (ρ : Dev nD → PrngReg)

noncomputable abbrev specTotalSum (c : Dev nD) : EReal := Cert.Spec.totalSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
noncomputable abbrev specTotal (c : Dev nD) : EReal := Cert.Spec.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

noncomputable def run0_0 (c : Dev nD) (n : ℕ) : Vec Ideal S1x128 .f32 := if h : n < cfg0.N then scr0_0 (V0 m ρ) c n h else k0_pay1 (F := Ideal)
noncomputable def run0_1 (c : Dev nD) (n : ℕ) : Vec Ideal S1x128 .f32 := if h : n < cfg0.N then scr0_1 (V0 m ρ) c n h else k0_pay2 (F := Ideal)
noncomputable def tile0 (c : Dev nD) (t : ℕ) : Vec Ideal S1024x128 .f32 := if h : t < cfg0.N then iblk0 (V0 m ρ) c 0 ⟨t, h⟩ else fun _ => 0

theorem tile0_rows (c : Dev nD) (t : ℕ) (ht : t < 128) (r : Fin 1024) (d : Fin 128) :
    tile0 m ρ c t (ix2 r d) = ((m ((c : Thread nD τ).loc main_arg1)) : Cert.Spec.SNxD.Idx → EReal) (ix2 (Cert.Sums.rowOf ⟨t, ht⟩ r) d) := by
  have hN : t < cfg0.N := lt_of_lt_of_eq ht N_0.symm
  unfold tile0
  rw [dif_pos hN]
  exact iblk0_0_apply (V0 m ρ) c ⟨t, hN⟩ r d

theorem run0_0_last (c : Dev nD) : run0_0 m ρ c 127 = scr0_0 (V0 m ρ) c 127 last_lt0 := by
  unfold run0_0; exact dif_pos last_lt0
theorem run0_1_last (c : Dev nD) : run0_1 m ρ c 127 = scr0_1 (V0 m ρ) c 127 last_lt0 := by
  unfold run0_1; exact dif_pos last_lt0

theorem scr0_0_colSum (c : Dev nD) (d : Fin 128) :
    scr0_0 (V0 m ρ) c 127 last_lt0 (ix2 (0 : Fin 1) d) = Cert.Spec.colSum (m ((c : Thread nD τ).loc main_arg1)) d := by
  have h0N : 0 < cfg0.N := lt_of_lt_of_eq (by decide : 0 < 128) N_0.symm
  have key := Folds.colSum_of_fold (m ((c : Thread nD τ).loc main_arg1)) (tile0 m ρ c) (run0_0 m ρ c) (tile0_rows m ρ c)
    (by unfold run0_0 tile0; rw [dif_pos h0N, dif_pos h0N]; exact scr0_0_zero (V0 m ρ) c h0N)
    (fun n hn => by
      have hN : n + 1 < cfg0.N := lt_of_lt_of_eq hn N_0.symm
      unfold run0_0 tile0
      rw [dif_pos hN, dif_pos hN, dif_pos (Nat.lt_of_succ_lt hN)]
      exact scr0_0_succ (V0 m ρ) c n hN) d
  rw [run0_0_last] at key
  exact key

theorem scr0_1_colSumSq (c : Dev nD) (d : Fin 128) :
    scr0_1 (V0 m ρ) c 127 last_lt0 (ix2 (0 : Fin 1) d) = Cert.Spec.colSumSq (m ((c : Thread nD τ).loc main_arg1)) d := by
  have h0N : 0 < cfg0.N := lt_of_lt_of_eq (by decide : 0 < 128) N_0.symm
  have key := Folds.colSumSq_of_fold (m ((c : Thread nD τ).loc main_arg1)) (tile0 m ρ c) (run0_1 m ρ c) (tile0_rows m ρ c)
    (by unfold run0_1 tile0; rw [dif_pos h0N, dif_pos h0N]; exact scr0_1_zero (V0 m ρ) c h0N)
    (fun n hn => by
      have hN : n + 1 < cfg0.N := lt_of_lt_of_eq hn N_0.symm
      unfold run0_1 tile0
      rw [dif_pos hN, dif_pos hN, dif_pos (Nat.lt_of_succ_lt hN)]
      exact scr0_1_succ (V0 m ρ) c n hN) d
  rw [run0_1_last] at key
  exact key

theorem last0_1_of {c : Dev nD} (dat : Dat τ (Elt Ideal) Unit ℕ (UR sig nD τ) ℕ cfg0 c) (s : (n : ℕ) → n < cfg0.N → Vec Ideal S1x128 .f32)
    (h : ∀ t : Fin cfg0.N, dat.after 1 t = s t.val t.isLt) : (dat.arrAt 1 cfg0.N : S1x128.Idx → EReal) = s 127 last_lt0 :=
  (arrAt_last0_1 dat).trans (h ⟨127, last_lt0⟩)
theorem last0_2_of {c : Dev nD} (dat : Dat τ (Elt Ideal) Unit ℕ (UR sig nD τ) ℕ cfg0 c) (s : (n : ℕ) → n < cfg0.N → Vec Ideal S1x128 .f32)
    (h : ∀ t : Fin cfg0.N, dat.after 2 t = s t.val t.isLt) : (dat.arrAt 2 cfg0.N : S1x128.Idx → EReal) = s 127 last_lt0 :=
  (arrAt_last0_2 dat).trans (h ⟨127, last_lt0⟩)

theorem W1_v0_0_apply (c : Dev nD) (d : Fin 128) :
    (W1 m ρ c (Proc.devRef .tc main_v0_0) : S1x128.Idx → EReal) (ix2 (0 : Fin 1) d) = Cert.Spec.colSum (m ((c : Thread nD τ).loc main_arg1)) d := by
  have e : (W1 m ρ c (Proc.devRef .tc main_v0_0) : S1x128.Idx → EReal) = scr0_0 (V0 m ρ) c 127 last_lt0 :=
    (W1_main_v0_0 m ρ c).trans (last0_1_of (dat0 (V0 m ρ) c) (scr0_0 (V0 m ρ) c) (after0_1_eq (V0 m ρ) c))
  exact (congrFun e _).trans (scr0_0_colSum m ρ c d)
theorem W1_v0_1_apply (c : Dev nD) (d : Fin 128) :
    (W1 m ρ c (Proc.devRef .tc main_v0_1) : S1x128.Idx → EReal) (ix2 (0 : Fin 1) d) = Cert.Spec.colSumSq (m ((c : Thread nD τ).loc main_arg1)) d := by
  have e : (W1 m ρ c (Proc.devRef .tc main_v0_1) : S1x128.Idx → EReal) = scr0_1 (V0 m ρ) c 127 last_lt0 :=
    (W1_main_v0_1 m ρ c).trans (last0_2_of (dat0 (V0 m ρ) c) (scr0_1 (V0 m ρ) c) (after0_2_eq (V0 m ρ) c))
  exact (congrFun e _).trans (scr0_1_colSumSq m ρ c d)

theorem W2_v2_apply (c : Dev nD) (d : Fin 128) :
    (W2 m ρ c (Proc.devRef .tc main_v2) : S1x128.Idx → EReal) (ix2 (0 : Fin 1) d) = Cert.Spec.colMean (m ((c : Thread nD τ).loc main_arg1)) d :=
  (congrFun (W2_main_v2 m ρ c) _).trans ((divRows_apply _ d).trans
    (congrArg (fun z => Ideal.div z Cert.Spec.cRows) (W1_v0_0_apply m ρ c d)))
theorem W2_v4_apply (c : Dev nD) (d : Fin 128) :
    (W2 m ρ c (Proc.devRef .tc main_v4) : S1x128.Idx → EReal) (ix2 (0 : Fin 1) d) = Cert.Spec.colMeanSq (m ((c : Thread nD τ).loc main_arg1)) d :=
  (congrFun (W2_main_v4 m ρ c) _).trans ((divRows_apply _ d).trans
    (congrArg (fun z => Ideal.div z Cert.Spec.cRows) (W1_v0_1_apply m ρ c d)))
theorem W2_v5_apply (c : Dev nD) (j : Fin 512) :
    (W2 m ρ c (Proc.devRef .tc main_v5) : S1x512.Idx → EReal) (ix2 (0 : Fin 1) j) = ((m ((c : Thread nD τ).loc main_arg3)) : Cert.Spec.SH.Idx → EReal) (ix1 j) :=
  (congrFun (W2_main_v5 m ρ c) _).trans (row512_apply _ j)
theorem W2_v6_apply (c : Dev nD) (d : Fin 128) :
    (W2 m ρ c (Proc.devRef .tc main_v6) : S1x128.Idx → EReal) (ix2 (0 : Fin 1) d) = ((m ((c : Thread nD τ).loc main_arg5)) : Cert.Spec.SD.Idx → EReal) (ix1 d) :=
  (congrFun (W2_main_v6 m ρ c) _).trans (row128_apply _ d)
theorem W2_v7_apply (c : Dev nD) (j : Fin 512) :
    (W2 m ρ c (Proc.devRef .tc main_v7) : S1x512.Idx → EReal) (ix2 (0 : Fin 1) j) = ((m ((c : Thread nD τ).loc main_arg7)) : Cert.Spec.SH.Idx → EReal) (ix1 j) :=
  (congrFun (W2_main_v7 m ρ c) _).trans (row512_apply _ j)
theorem W2_v8_apply (c : Dev nD) (d : Fin 128) :
    (W2 m ρ c (Proc.devRef .tc main_v8) : S1x128.Idx → EReal) (ix2 (0 : Fin 1) d) = ((m ((c : Thread nD τ).loc main_arg9)) : Cert.Spec.SD.Idx → EReal) (ix1 d) :=
  (congrFun (W2_main_v8 m ρ c) _).trans (row128_apply _ d)

noncomputable abbrev step2 (c : Dev nD) (xb yb : Vec Ideal S1024x128 .f32) (prev : Vec Ideal S1x1 .f32) : Vec Ideal S1x1 .f32 :=
  step1 xb yb (m ((c : Thread nD τ).loc main_arg2)) (V2 m ρ c main_v5) (m ((c : Thread nD τ).loc main_arg4)) (V2 m ρ c main_v6) (m ((c : Thread nD τ).loc main_arg6)) (V2 m ρ c main_v7) (m ((c : Thread nD τ).loc main_arg8)) (V2 m ρ c main_v8)
    (V2 m ρ c main_v2) (V2 m ρ c main_v4) prev

theorem step1_congr {xb yb : Vec Ideal S1024x128 .f32} {prev : Vec Ideal S1x1 .f32}
    {a2 a2' : Vec Ideal S128x512 .f32} {a3 a3' : Vec Ideal S1x512 .f32} {a4 a4' : Vec Ideal S512x128 .f32} {a5 a5' : Vec Ideal S1x128 .f32}
    {a6 a6' : Vec Ideal S128x512 .f32} {a7 a7' : Vec Ideal S1x512 .f32} {a8 a8' : Vec Ideal S512x128 .f32} {a9 a9' : Vec Ideal S1x128 .f32}
    {a10 a10' a11 a11' : Vec Ideal S1x128 .f32}
    (h2 : a2 = a2') (h3 : a3 = a3') (h4 : a4 = a4') (h5 : a5 = a5') (h6 : a6 = a6') (h7 : a7 = a7') (h8 : a8 = a8') (h9 : a9 = a9')
    (h10 : a10 = a10') (h11 : a11 = a11') :
    step1 xb yb a2 a3 a4 a5 a6 a7 a8 a9 a10 a11 prev = step1 xb yb a2' a3' a4' a5' a6' a7' a8' a9' a10' a11' prev := by
  subst h2 h3 h4 h5 h6 h7 h8 h9 h10 h11; rfl

theorem step_at (c : Dev nD) (t : Fin cfg1.N) (prev : Vec Ideal S1x1 .f32) :
    step1 (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) prev
      = step2 m ρ c (iblk1 (V2 m ρ) c 0 t) (iblk1 (V2 m ρ) c 1 t) prev :=
  step1_congr ((iblk1_2_eq (V2 m ρ) c t).trans (W2_arg m ρ c main_arg2 (by decide) (by decide))) (iblk1_3_eq (V2 m ρ) c t)
    ((iblk1_4_eq (V2 m ρ) c t).trans (W2_arg m ρ c main_arg4 (by decide) (by decide))) (iblk1_5_eq (V2 m ρ) c t)
    ((iblk1_6_eq (V2 m ρ) c t).trans (W2_arg m ρ c main_arg6 (by decide) (by decide))) (iblk1_7_eq (V2 m ρ) c t)
    ((iblk1_8_eq (V2 m ρ) c t).trans (W2_arg m ρ c main_arg8 (by decide) (by decide))) (iblk1_9_eq (V2 m ρ) c t)
    (iblk1_10_eq (V2 m ρ) c t) (iblk1_11_eq (V2 m ρ) c t)

noncomputable def run1 (c : Dev nD) (n : ℕ) : Vec Ideal S1x1 .f32 := if h : n < cfg1.N then acc1 (V2 m ρ) c n h else k1_pay2 (F := Ideal)
noncomputable def tile1_0 (c : Dev nD) (t : ℕ) : Vec Ideal S1024x128 .f32 := if h : t < cfg1.N then iblk1 (V2 m ρ) c 0 ⟨t, h⟩ else fun _ => 0
noncomputable def tile1_1 (c : Dev nD) (t : ℕ) : Vec Ideal S1024x128 .f32 := if h : t < cfg1.N then iblk1 (V2 m ρ) c 1 ⟨t, h⟩ else fun _ => 0

theorem tile1_0_rows (c : Dev nD) (t : ℕ) (ht : t < 128) (r : Fin 1024) (k : Fin 128) :
    tile1_0 m ρ c t (ix2 r k) = ((m ((c : Thread nD τ).loc main_arg0)) : Cert.Spec.SNxD.Idx → EReal) (ix2 (Cert.Sums.rowOf ⟨t, ht⟩ r) k) := by
  have hN : t < cfg1.N := lt_of_lt_of_eq ht N_1.symm
  unfold tile1_0
  rw [dif_pos hN]
  exact (iblk1_0_apply (V2 m ρ) c ⟨t, hN⟩ r k).trans (congrFun (W2_arg m ρ c main_arg0 (by decide) (by decide)) _)
theorem tile1_1_rows (c : Dev nD) (t : ℕ) (ht : t < 128) (r : Fin 1024) (d : Fin 128) :
    tile1_1 m ρ c t (ix2 r d) = ((m ((c : Thread nD τ).loc main_arg1)) : Cert.Spec.SNxD.Idx → EReal) (ix2 (Cert.Sums.rowOf ⟨t, ht⟩ r) d) := by
  have hN : t < cfg1.N := lt_of_lt_of_eq ht N_1.symm
  unfold tile1_1
  rw [dif_pos hN]
  exact (iblk1_1_apply (V2 m ρ) c ⟨t, hN⟩ r d).trans (congrFun (W2_arg m ρ c main_arg1 (by decide) (by decide)) _)

theorem run1_last (c : Dev nD) : run1 m ρ c 127 = acc1 (V2 m ρ) c 127 last_lt1 := by
  unfold run1; exact dif_pos last_lt1

theorem acc1_totalSum (c : Dev nD) :
    acc1 (V2 m ρ) c 127 last_lt1 (ix2 (0 : Fin 1) (0 : Fin 1)) = specTotalSum m c := by
  have h0N : 0 < cfg1.N := lt_of_lt_of_eq (by decide : 0 < 128) N_1.symm
  have key := Folds.totalSum_of_fold_core (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (V2 m ρ c main_v5) (V2 m ρ c main_v6) (V2 m ρ c main_v7) (V2 m ρ c main_v8) (V2 m ρ c main_v2) (V2 m ρ c main_v4)
    (step2 m ρ c) (fun xb yb prev => PayIdx.step1_apply xb yb _ _ _ _ _ _ _ _ _ _ prev)
    (tile1_0 m ρ c) (tile1_1 m ρ c) (run1 m ρ c) (k1_pay2 (F := Ideal))
    (tile1_0_rows m ρ c) (tile1_1_rows m ρ c)
    (W2_v5_apply m ρ c) (W2_v6_apply m ρ c) (W2_v7_apply m ρ c) (W2_v8_apply m ρ c) (W2_v2_apply m ρ c) (W2_v4_apply m ρ c)
    (PayIdx.k1_pay2_apply _)
    (by unfold run1 tile1_0 tile1_1; rw [dif_pos h0N, dif_pos h0N, dif_pos h0N]
        exact (acc1_zero (V2 m ρ) c h0N).trans (step_at m ρ c ⟨0, h0N⟩ _))
    (fun n hn => by
      have hN : n + 1 < cfg1.N := lt_of_lt_of_eq hn N_1.symm
      unfold run1 tile1_0 tile1_1
      rw [dif_pos hN, dif_pos hN, dif_pos hN, dif_pos (Nat.lt_of_succ_lt hN)]
      exact (acc1_succ (V2 m ρ) c n hN).trans (step_at m ρ c ⟨n + 1, hN⟩ _))
  rw [run1_last] at key
  exact key

theorem last1_12_of {c : Dev nD} (dat : Dat τ (Elt Ideal) Unit ℕ (UR sig nD τ) ℕ cfg1 c) (s : (n : ℕ) → n < cfg1.N → Vec Ideal S1x1 .f32)
    (h : ∀ t : Fin cfg1.N, t.val = 127 → dat.after 12 t = s t.val t.isLt) : (dat.arrAt 12 cfg1.N : S1x1.Idx → EReal) = s 127 last_lt1 :=
  (arrAt_last1_12 dat).trans (h ⟨127, last_lt1⟩ rfl)

theorem out12_totalSum (c : Dev nD) :
    ((dat1 (V2 m ρ) c).arrAt 12 cfg1.N : S1x1.Idx → EReal) (ix2 (0 : Fin 1) (0 : Fin 1)) = specTotalSum m c :=
  (congrFun (last1_12_of (dat1 (V2 m ρ) c) (acc1 (V2 m ρ) c) (after1_12_last (V2 m ρ) c)) _).trans (acc1_totalSum m ρ c)

theorem W4_total (c : Dev nD) : W4 m ρ c (Proc.devRef .tc main_v11) = fun _ => specTotal m c := by
  have h3 : (W3 m ρ c (Proc.devRef .tc main_v9) : S1x1.Idx → EReal) (ix2 (0 : Fin 1) (0 : Fin 1)) = specTotalSum m c :=
    (congrFun (W3_main_v9 m ρ c) _).trans (out12_totalSum m ρ c)
  rw [W4_result]
  funext i
  rw [divTotal_apply, h3]
  rfl

theorem value_run : θ_run defs (onTc (τ := τ) (main (F := Ideal))) ⟨m, fun _ => 0, ρ⟩ (fun r => ∀ c : Dev nD,
      r.2.mem ((c.tc : Thread nD τ).loc main_v11) = (fun _ => specTotal m c) ∧ ArgsKept m r.2 c) :=
  run_post m ρ fun s h c => ⟨(h c _ (mem_uc main_v11 (by decide))).trans (W4_total m ρ c), args_kept m ρ h c⟩

end Cert.KernelIdeal.Hand

end
-- ==== Proof.RefSide.lean ====
import proofs.«148436_j816043786555_1_alg».proof.Proof.Gen.ReferenceIdeal.Run
import proofs.«148436_j816043786555_1_alg».proof.Proof.Gen.ReferenceIdeal.Read
-- ==== Proof.RefIsSpec.lean ====
import proofs.«148436_j816043786555_1_alg».proof.Proof.RefSide
import proofs.«148436_j816043786555_1_alg».proof.Proof.Spec

noncomputable section

open scoped BigOperators

namespace Cert.RefValue

open Cert.ReferenceIdeal Cert.ReferenceIdeal.Gen Cert.ReferenceIdeal.Read Idealize.ShloMosaic Idealize.ShloMosaic.ValueIdx
open Cert.Spec

noncomputable abbrev ANxD := (⟨S131072x128, .f32⟩ : BufTy).Contents (Elt Ideal)
noncomputable abbrev ADxH := (⟨S128x512, .f32⟩ : BufTy).Contents (Elt Ideal)
noncomputable abbrev AH := (⟨S512, .f32⟩ : BufTy).Contents (Elt Ideal)
noncomputable abbrev AHxD := (⟨S512x128, .f32⟩ : BufTy).Contents (Elt Ideal)
noncomputable abbrev AD := (⟨S128, .f32⟩ : BufTy).Contents (Elt Ideal)

theorem pre_apply (x : ANxD) (W1 : ADxH) (b1 : AH) (n : Fin 131072) (j : Fin 512) :
    val_main_v3 (F := Ideal) x W1 b1 (ix2 n j) = (∑ k : Fin 128, x (ix2 n k) * W1 (ix2 k j)) + b1 (ix1 j) := by
  rw [val_main_v3_apply, val_main_v0_apply, val_main_v2_apply, val_main_v1_apply]
  have hl : ∀ k : Fin 128, lidx_main_v0 (ix2 n j) k = ix2 n k := fun k =>
    funext fun a => Fin.ext (by match a with | ⟨0, _⟩ => rfl | ⟨1, _⟩ => rfl)
  have hr : ∀ k : Fin 128, ridx_main_v0 (ix2 n j) k = ix2 k j := fun k =>
    funext fun a => Fin.ext (by match a with | ⟨0, _⟩ => rfl | ⟨1, _⟩ => rfl)
  have hb : idx_main_v1 (idx_main_v2 (ix2 n j)) = ix1 j :=
    funext fun a => Fin.ext (by match a with | ⟨0, _⟩ => rfl)
  rw [hb]
  simp only [hl, hr]
  rfl

theorem hid_apply (x : ANxD) (W1 : ADxH) (b1 : AH) (n : Fin 131072) (j : Fin 512) :
    val_main_v8 (F := Ideal) x W1 b1 (ix2 n j) = hidRow (fun k => x (ix2 n k)) W1 (fun j => b1 (ix1 j)) j := by
  rw [val_main_v8_apply, val_main_v5_apply, val_main_v7_apply, val_main_v4_apply, val_main_v6_apply,
    val_main_cst_apply, val_main_cst_0_apply, pre_apply]
  rfl

theorem net_apply (x : ANxD) (W1 : ADxH) (b1 : AH) (W2 : AHxD) (b2 : AD) (n : Fin 131072) (d : Fin 128) :
    val_main_v12 (F := Ideal) x W1 b1 W2 b2 (ix2 n d)
      = netRow (fun k => x (ix2 n k)) W1 (fun j => b1 (ix1 j)) W2 (fun d => b2 (ix1 d)) d := by
  rw [val_main_v12_apply, val_main_v9_apply, val_main_v11_apply, val_main_v10_apply]
  have hl : ∀ k : Fin 512, lidx_main_v9 (ix2 n d) k = ix2 n k := fun k =>
    funext fun a => Fin.ext (by match a with | ⟨0, _⟩ => rfl | ⟨1, _⟩ => rfl)
  have hr : ∀ k : Fin 512, ridx_main_v9 (ix2 n d) k = ix2 k d := fun k =>
    funext fun a => Fin.ext (by match a with | ⟨0, _⟩ => rfl | ⟨1, _⟩ => rfl)
  have hb : idx_main_v10 (idx_main_v11 (ix2 n d)) = ix1 d :=
    funext fun a => Fin.ext (by match a with | ⟨0, _⟩ => rfl)
  rw [hb]
  simp only [hl, hr, hid_apply]
  rfl

theorem net2_eq (x : ANxD) (W1 : ADxH) (b1 : AH) (W2 : AHxD) (b2 : AD) :
    val_main_v25 (F := Ideal) x W1 b1 W2 b2 = val_main_v12 (F := Ideal) x W1 b1 W2 b2 := rfl

theorem invVar_apply (x : ANxD) (W1 : ADxH) (b1 : AH) (W2 : AHxD) (b2 : AD) (n : Fin 131072) (d : Fin 128) :
    val_main_v28 (F := Ideal) x W1 b1 W2 b2 (ix2 n d)
      = invVar (netRow (fun k => x (ix2 n k)) W1 (fun j => b1 (ix1 j)) W2 (fun d => b2 (ix1 d)) d) := by
  rw [val_main_v28_apply, val_main_v27_apply, val_main_v26_apply, net2_eq, net_apply]
  rfl

theorem colMean_apply (y : ANxD) (d : Fin 128) : val_main_v37 (F := Ideal) y (ix1 d) = colMean y d := by
  rw [val_main_v37_apply, val_main_v35_apply, val_main_v36_apply, val_main_cst_5_apply, val_main_cst_4_apply]
  have hi : ∀ k : Fin 131072, idx_main_v35 (ix1 d) k = ix2 k d := fun k =>
    funext fun a => Fin.ext (by match a with | ⟨0, _⟩ => rfl | ⟨1, _⟩ => rfl)
  simp only [hi]
  rw [Ideal.ofBits_def, Ideal.ofBits_zero_f32, zero_add]
  rfl

theorem colMeanSq_apply (y : ANxD) (d : Fin 128) : val_main_v41 (F := Ideal) y (ix1 d) = colMeanSq y d := by
  rw [val_main_v41_apply, val_main_v39_apply, val_main_v40_apply, val_main_cst_7_apply, val_main_cst_6_apply]
  have hi : ∀ k : Fin 131072, idx_main_v39 (ix1 d) k = ix2 k d := fun k =>
    funext fun a => Fin.ext (by match a with | ⟨0, _⟩ => rfl | ⟨1, _⟩ => rfl)
  simp only [hi, val_main_v38_apply]
  rw [Ideal.ofBits_def, Ideal.ofBits_zero_f32, zero_add]
  rfl

section
variable (x y : ANxD) (W1m : ADxH) (b1m : AH) (W2m : AHxD) (b2m : AD) (W1v : ADxH) (b1v : AH) (W2v : AHxD) (b2v : AD)

theorem pos_apply (n : Fin 131072) (d : Fin 128) :
    val_main_v34 (F := Ideal) x y W1m b1m W2m b2m W1v b1v W2v b2v (ix2 n d)
      = posTerm (netRow (fun k => x (ix2 n k)) W1m (fun j => b1m (ix1 j)) W2m (fun d => b2m (ix1 d)) d) (y (ix2 n d))
          (invVar (netRow (fun k => x (ix2 n k)) W1v (fun j => b1v (ix1 j)) W2v (fun d => b2v (ix1 d)) d)) := by
  rw [val_main_v34_apply, val_main_v33_apply, val_main_v31_apply, val_main_v30_apply, val_main_v29_apply,
    val_main_v32_apply, val_main_cst_3_apply, invVar_apply, net_apply]
  rfl

theorem neg_apply (n : Fin 131072) (d : Fin 128) :
    val_main_v55 (F := Ideal) x y W1m b1m W2m b2m W1v b1v W2v b2v (ix2 n d)
      = negTerm (netRow (fun k => x (ix2 n k)) W1m (fun j => b1m (ix1 j)) W2m (fun d => b2m (ix1 d)) d)
          (colMean y d) (colMeanSq y d)
          (invVar (netRow (fun k => x (ix2 n k)) W1v (fun j => b1v (ix1 j)) W2v (fun d => b2v (ix1 d)) d)) := by
  have hm : idx_main_v44 (idx_main_v45 (ix2 n d)) = ix1 d :=
    funext fun a => Fin.ext (by match a with | ⟨0, _⟩ => rfl)
  have hq : idx_main_v47 (idx_main_v48 (ix2 n d)) = ix1 d :=
    funext fun a => Fin.ext (by match a with | ⟨0, _⟩ => rfl)
  rw [val_main_v55_apply, val_main_v54_apply, val_main_v52_apply, val_main_v51_apply, val_main_v49_apply,
    val_main_v50_apply, val_main_v48_apply, val_main_v47_apply, val_main_v46_apply, val_main_v45_apply,
    val_main_v44_apply, val_main_v43_apply, val_main_v42_apply, val_main_cst_8_apply, val_main_v53_apply,
    val_main_cst_9_apply, hm, hq, colMean_apply, colMeanSq_apply, invVar_apply, net_apply]
  rfl

theorem row_apply (n : Fin 131072) :
    val_main_v58 (F := Ideal) x y W1m b1m W2m b2m W1v b1v W2v b2v (ix1 n)
      = rowVal x y W1m b1m W2m b2m W1v b1v W2v b2v (colMean y) (colMeanSq y) n := by
  rw [val_main_v58_apply, val_main_v56_apply, val_main_v57_apply, val_main_cst_10_apply, val_main_cst_11_apply]
  have hp : ∀ k : Fin 128, idx_main_v56 (ix1 n) k = ix2 n k := fun k =>
    funext fun a => Fin.ext (by match a with | ⟨0, _⟩ => rfl | ⟨1, _⟩ => rfl)
  have hn : ∀ k : Fin 128, idx_main_v57 (ix1 n) k = ix2 n k := fun k =>
    funext fun a => Fin.ext (by match a with | ⟨0, _⟩ => rfl | ⟨1, _⟩ => rfl)
  simp only [hp, hn, pos_apply, neg_apply]
  rw [Ideal.ofBits_def, Ideal.ofBits_zero_f32, zero_add, zero_add]
  rfl

theorem sum_idx1 {M : Type*} [AddCommMonoid M] {n : Nat} (f : (⟨1, ![n]⟩ : Shape).Idx → M) :
    ∑ j : (⟨1, ![n]⟩ : Shape).Idx, f j = ∑ a : Fin n, f (ix1 a) :=
  Fintype.sum_equiv ⟨fun j => j 0, fun a => ix1 a, fun j => (eq_ix1 j).symm, fun _ => rfl⟩ _ _
    fun j => congrArg f (eq_ix1 j)

theorem total_apply (i : S_.Idx) :
    val_main_v60 (F := Ideal) x y W1m b1m W2m b2m W1v b1v W2v b2v i = total x y W1m b1m W2m b2m W1v b1v W2v b2v := by
  rw [val_main_v60_apply, val_main_v59_apply, val_main_cst_13_apply, val_main_cst_12_apply, sum_idx1]
  simp only [row_apply]
  rw [Ideal.ofBits_def, Ideal.ofBits_zero_f32, zero_add]
  rfl

end

theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = fun _ => Cert.Spec.total
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) :=
  (val_main_v60_eq m c).trans (funext fun i => total_apply _ _ _ _ _ _ _ _ _ _ i)

end Cert.RefValue

end
-- ==== Proof.lean ====
/- The kernel sums over the rows tile by tile, the reference at once; the results agree on the extended reals because
   addition there is commutative and associative, so no finiteness of the inputs is used. -/
import proofs.«148436_j816043786555_1_alg».proof.Defs
import proofs.«148436_j816043786555_1_alg».proof.Proof.Gen.Kernel
import proofs.«148436_j816043786555_1_alg».proof.Proof.Gen.KernelIdeal
import proofs.«148436_j816043786555_1_alg».proof.Proof.Gen.ReferenceIdeal
import proofs.«148436_j816043786555_1_alg».proof.Proof.Gen.Pre_finite_inputs
import proofs.«148436_j816043786555_1_alg».proof.Proof.KbRunMain
import proofs.«148436_j816043786555_1_alg».proof.Proof.KiValue
import proofs.«148436_j816043786555_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  have hr := Cert.RefValue.ref_eq m' c
  obtain ⟨h0, h1, h2, h3, h4, h5, h6, h7, h8, h9⟩ := hagree c
  rw [h0, h1, h2, h3, h4, h5, h6, h7, h8, h9] at hr
  exact hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
